-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x16 : Shape := ⟨2, ![600000, 16]⟩
abbrev S16x128 : Shape := ⟨2, ![16, 128]⟩
abbrev S128 : Shape := ⟨1, ![128]⟩
abbrev S128x128 : Shape := ⟨2, ![128, 128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part5 {F : FTy → Type} [FloatOps F] (main_v78 : IVec S_ 1) (main_v82 : IVec S600000 1) (main_v84 : IVec S600000 32) (main_v85 : IVec S600000 32) : IVec S_ 1 :=
  let main_v86 : IVec S600000 1 := cmpi .slt main_v84 main_v85
  let main_v87 : IVec S600000 1 := andi main_v82 main_v86
  let main_c_32 : IVec S_ 1 := constantI S_ 1 1#1
  let main_v88 : IVec S_ 1 := (fun x v => Host.reduce IntOp.andi x v reducesTo_S600000_S_d0 h_S_) main_v87 main_c_32
  let main_v89 : IVec S_ 1 := andi main_v78 main_v88
  main_v89

def fn_part4 {F : FTy → Type} [FloatOps F] (main_arg1 : IVec S2x600000 32) (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : IVec S1x600000 32 := (extractStridedSlice S1x600000 ![0, 0] · slices_S2x600000_S1x600000_0_0) main_arg1
  let main_v80 : IVec S600000 32 := shapeCast S600000 main_v79 shapeCasts_S1x600000_S600000
  let main_c_30 : IVec S_ 32 := constantI S_ 32 0#32
  let main_v81 : IVec S600000 32 := broadcastInDim S600000 ![] bcast_S_S600000 main_c_30
  let main_v82 : IVec S600000 1 := cmpi .sge main_v80 main_v81
  let main_v83 : IVec S1x600000 32 := (extractStridedSlice S1x600000 ![0, 0] · slices_S2x600000_S1x600000_0_0) main_arg1
  let main_v84 : IVec S600000 32 := shapeCast S600000 main_v83 shapeCasts_S1x600000_S600000
  let main_c_31 : IVec S_ 32 := constantI S_ 32 50000#32
  let main_v85 : IVec S600000 32 := broadcastInDim S600000 ![] bcast_S_S600000 main_c_31
  fn_part5 (F := F) main_v78 main_v82 main_v84 main_v85

def fn_part3 {F : FTy → Type} [FloatOps F] (main_arg1 : IVec S2x600000 32) (main_arg12 : FVec F S128 .f32) (main_arg13 : FVec F S128x128 .f32) (main_arg14 : FVec F S128 .f32) (main_arg15 : FVec F S128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_v63 main_v67

def fn_part2 {F : FTy → Type} [FloatOps F] (main_arg1 : IVec S2x600000 32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_arg16 main_v48 main_v49 main_v50

def fn_part1 {F : FTy → Type} [FloatOps F] (main_arg1 : IVec S2x600000 32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x128 .f32) (main_arg1 : IVec S2x600000 32) (main_arg2 : FVec F S600000x16 .f32) (main_arg3 : FVec F S16x128 .f32) (main_arg4 : FVec F S128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x16 .f32 := Host.absf main_arg2
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x600000 : Shape := ⟨2, ![2, 600000]⟩
abbrev S600000x16 : Shape := ⟨2, ![600000, 16]⟩
abbrev S16x128 : Shape := ⟨2, ![16, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S1x128 : Shape := ⟨2, ![1, 128]⟩
abbrev S6000x16 : Shape := ⟨2, ![6000, 16]⟩
abbrev S6000x128 : Shape := ⟨2, ![6000, 128]⟩
abbrev S_ : Shape := ⟨0, ![]⟩
abbrev S600000x128 : Shape := ⟨2, ![600000, 128]⟩
abbrev S600000x1 : Shape := ⟨2, ![600000, 1]⟩
abbrev S1 : Shape := ⟨1, ![1]⟩
abbrev S1x1 : Shape := ⟨2, ![1, 1]⟩
abbrev S5000x128 : Shape := ⟨2, ![5000, 128]⟩

abbrev nBuf : Space → Nat
  | .hbm => 95
  | .vmem => 64
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x16, .f32⟩
  | .hbm, ⟨3, _⟩ => ⟨S16x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S1, .i32⟩
  | .hbm, ⟨56, _⟩ => ⟨S_, .i32⟩
  | .hbm, ⟨57, _⟩ => ⟨S600000x1, .i32⟩
  | .hbm, ⟨58, _⟩ => ⟨S600000x1, .i1⟩
  | .hbm, ⟨59, _⟩ => ⟨S1x1, .i32⟩
  | .hbm, ⟨60, _⟩ => ⟨S600000x1, .i32⟩
  | .hbm, ⟨61, _⟩ => ⟨S600000x1, .i1⟩
  | .hbm, ⟨62, _⟩ => ⟨S600000x1, .i1⟩
  | .hbm, ⟨63, _⟩ => ⟨S_, .i1⟩
  | .hbm, ⟨64, _⟩ => ⟨S600000, .i1⟩
  | .hbm, ⟨65, _⟩ => ⟨S600000x128, .f32⟩
  | .hbm, ⟨66, _⟩ => ⟨S600000x128, .i1⟩
  | .hbm, ⟨67, _⟩ => ⟨S_, .f32⟩
  | .hbm, ⟨68, _⟩ => ⟨S600000x128, .f32⟩
  | .hbm, ⟨69, _⟩ => ⟨S600000x128, .f32⟩
  | .hbm, ⟨70, _⟩ => ⟨S_, .f32⟩
  | .hbm, ⟨71, _⟩ => ⟨S50000x128, .f32⟩
  | .hbm, ⟨72, _⟩ => ⟨S600000x1, .i32⟩
  | .hbm, ⟨73, _⟩ => ⟨S50000x128, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S50000x128, .f32⟩
  | .local _ .vmem, ⟨0, _⟩ => ⟨S6000x16, .f32⟩
  | .local _ .vmem, ⟨1, _⟩ => ⟨S6000x16, .f32⟩
  | .local _ .vmem, ⟨2, _⟩ => ⟨S16x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S6000x16, .f32⟩
  | .local _ .vmem, ⟨9, _⟩ => ⟨S6000x16, .f32⟩
  | .local _ .vmem, ⟨10, _⟩ => ⟨S16x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S6000x128, .f32⟩
  | .local _ .vmem, ⟨19, _⟩ => ⟨S6000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_cst : Ref sig .tc := ⟨.hbm, 67, rfl⟩
abbrev main_call0_v15 : Ref sig .tc := ⟨.hbm, 68, rfl⟩
abbrev main_v26 : Ref sig .tc := ⟨.hbm, 69, rfl⟩
abbrev main_cst_2 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30_0 : Ref sig .tc := ⟨.hbm, 74, rfl⟩
abbrev main_v30_1 : Ref sig .tc := ⟨.hbm, 75, rfl⟩
abbrev main_cst_3 : Ref sig .tc := ⟨.hbm, 76, rfl⟩
abbrev main_v31 : Ref sig .tc := ⟨.hbm, 77, rfl⟩
abbrev main_v32 : Ref sig .tc := ⟨.hbm, 78, rfl⟩
abbrev main_cst_4 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37_0 : Ref sig .tc := ⟨.hbm, 84, rfl⟩
abbrev main_v37_1 : Ref sig .tc := ⟨.hbm, 85, rfl⟩
abbrev main_cst_5 : Ref sig .tc := ⟨.hbm, 86, rfl⟩
abbrev main_v38 : Ref sig .tc := ⟨.hbm, 87, rfl⟩
abbrev main_v39 : Ref sig .tc := ⟨.hbm, 88, rfl⟩
abbrev main_cst_6 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg11_0 : Ref sig .tc := ⟨.vmem, 43, rfl⟩
abbrev cc3_scratch0 : Ref sig .tc := ⟨.vmem, 44, rfl⟩
abbrev cc3_scratch1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg9_0 : Ref sig .tc := ⟨.vmem, 57, rfl⟩
abbrev cc4_stg10_0 : Ref sig .tc := ⟨.vmem, 58, rfl⟩
abbrev cc4_stg11_0 : Ref sig .tc := ⟨.vmem, 59, rfl⟩
abbrev cc4_stg12_0 : Ref sig .tc := ⟨.vmem, 60, rfl⟩
abbrev cc4_stg13_0 : Ref sig .tc := ⟨.vmem, 61, rfl⟩
abbrev cc4_stg14_0 : Ref sig .tc := ⟨.vmem, 62, rfl⟩
abbrev cc4_stg14_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem11_0 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem7_0 : DmaSem sig := 49
abbrev cc4_sem8_0 : DmaSem sig := 50
abbrev cc4_sem9_0 : DmaSem sig := 51
abbrev cc4_sem10_0 : DmaSem sig := 52
abbrev cc4_sem11_0 : DmaSem sig := 53
abbrev cc4_sem12_0 : DmaSem sig := 54
abbrev cc4_sem13_0 : DmaSem sig := 55
abbrev cc4_sem14_0 : DmaSem sig := 56
abbrev cc4_sem14_1 : DmaSem sig := 57

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S6000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x128 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 2 → Memref sig .tc .vmem S5000x128 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S6000x16_S6000x16_0_0 : ∀ a, (![0, 0] : Fin 2 → Nat) a + S6000x16.size a ≤ S6000x16.size a
  h_S6000x16 : 0 < S6000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  broadcasts_S1x128_S6000x128 : S1x128.Broadcasts S6000x128
  reduces_S6000x128_S128 : S6000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  inb_S6000x128_S6000x128_0_0 : ∀ a, (![0, 0] : Fin 2 → Nat) a + S6000x128.size a ≤ S6000x128.size a
  h_S6000x128 : 0 < S6000x128.numel
  bcast_S_S50000x128 : S_.BroadcastsInDim S50000x128 (![] : Fin 0 → Fin S50000x128.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S128 : S5000x128.Reduces [0] S128
  dot_S6000x16_S16x128_S6000x128_1_0_0_1_n_n_wf : DotDims.WF S6000x16 S16x128 S6000x128 [1] [0] [0] [1] [] []
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x16.size a ≤ S600000x16.size a
  hwx0_0 : ∀ i : grid0.Coords, EltTy.bits .f32 = 32 ∨ (Rect.block (s := S600000x16) S6000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x16.size a ≤ S600000x16.size a
  hwx1_0 : ∀ i : grid1.Coords, EltTy.bits .f32 = 32 ∨ (Rect.block (s := S600000x16) S6000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S6000x128.size a ≤ S600000x128.size a
  hwx1_9 : ∀ i : grid1.Coords, EltTy.bits .f32 = 32 ∨ (Rect.block (s := S600000x128) S6000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x128.size a ≤ S1x128.size a
  hwx4_11 : ∀ i : grid4.Coords, EltTy.bits .f32 = 32 ∨ (Rect.block (s := S1x128) S1x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x128.size a ≤ S1x128.size a
  hwx4_12 : ∀ i : grid4.Coords, EltTy.bits .f32 = 32 ∨ (Rect.block (s := S1x128) S1x128.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x128.size a ≤ S1x128.size a
  hwx4_13 : ∀ i : grid4.Coords, EltTy.bits .f32 = 32 ∨ (Rect.block (s := S1x128) S1x128.size (cc4_transform_13 i) (hinb4_13 i)).WholeWords (EltTy.packing .f32)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S5000x128.size a ≤ S50000x128.size a
  hwx4_14 : ∀ i : grid4.Coords, EltTy.bits .f32 = 32 ∨ (Rect.block (s := S50000x128) S5000x128.size (cc4_transform_14 i) (hinb4_14 i)).WholeWords (EltTy.packing .f32)

variable [Facts₀]

def dot_S6000x16_S16x128_S6000x128_1_0_0_1_n_n : DotDims S6000x16 S16x128 S6000x128 where
  lhsContracting := [1]
  rhsContracting := [0]
  lhsNonContracting := [0]
  rhsNonContracting := [1]
  lhsBatch := []
  rhsBatch := []
  wf := dot_S6000x16_S16x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg2) S6000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S6000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S6000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30_0) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30_1) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v25) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v32) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v36) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v9) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v10) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg13) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v11) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v37_0) S1x128.size cc3_transform_10 reads3_10 true true 1 stage3_10 sem3_10
    hrank3 hreads3_10 hinb3_10 nbuf3_10 (Memref.isWhole_whole _) hwx3_10 hstage3_10

abbrev win3_11 : Pipeline.Window sig grid3 :=
  Pipeline.Window.ofSpec (Memref.whole main_v37_1) S1x128.size cc3_transform_11 reads3_11 true true 1 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v25) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v8) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v32) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v36) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v9) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v10) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg13) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v11) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v39) S1x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v43) S1x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v12) S1x128.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v13) S1x128.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v44) S5000x128.size cc4_transform_14 reads4_14 true false 2 stage4_14 sem4_14
    hrank4 hreads4_14 hinb4_14 nbuf4_14 (Memref.isWhole_whole _) hwx4_14 hstage4_14

abbrev win4 : Fin 15 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | ⟨_ + 15, h⟩ => absurd h (Nat.not_lt.2 (Nat.le_add_left _ _))
abbrev spec4 : Fin 15 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x16 : Shape := ⟨2, ![600000, 16]⟩
abbrev S16x128 : Shape := ⟨2, ![16, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S600000x128 : Shape := ⟨2, ![600000, 128]⟩
abbrev S1x128 : Shape := ⟨2, ![1, 128]⟩
abbrev S_ : Shape := ⟨0, ![]⟩
abbrev S600000x1 : Shape := ⟨2, ![600000, 1]⟩

abbrev nBuf : Space → Nat
  | .hbm => 197
  | .vmem => 0
  | .smem => 0
  | _ => 0

abbrev hbmTy0_0 (i : Nat) : BufTy := match i % 128 with
  | 0 => ⟨S50000x128, .f32⟩
  | 1 => ⟨S2x600000, .i32⟩
  | 2 => ⟨S600000x16, .f32⟩
  | 3 => ⟨S16x128, .f32⟩
  | 4 => ⟨S128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S128, .f32⟩
  | 16 => ⟨S128, .f32⟩
  | 17 => ⟨S1x600000, .i32⟩
  | 18 => ⟨S600000, .i32⟩
  | 19 => ⟨S1x600000, .i32⟩
  | 20 => ⟨S600000, .i32⟩
  | 21 => ⟨S600000x128, .f32⟩
  | 22 => ⟨S1x128, .f32⟩
  | 23 => ⟨S600000x128, .f32⟩
  | 24 => ⟨S600000x128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S600000x128, .f32⟩
  | 38 => ⟨S600000x128, .f32⟩
  | 39 => ⟨S600000x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x128, .f32⟩
  | 54 => ⟨S600000x128, .f32⟩
  | 55 => ⟨S600000x128, .f32⟩
  | 56 => ⟨S_, .f32⟩
  | 57 => ⟨S128, .f32⟩
  | 58 => ⟨S128, .f32⟩
  | 59 => ⟨S128, .f32⟩
  | 60 => ⟨S1x128, .f32⟩
  | 61 => ⟨S600000x128, .f32⟩
  | 62 => ⟨S600000x128, .f32⟩
  | 63 => ⟨S1x128, .f32⟩
  | 64 => ⟨S600000x128, .f32⟩
  | 65 => ⟨S600000x128, .f32⟩
  | 66 => ⟨S1x128, .f32⟩
  | 67 => ⟨S600000x128, .f32⟩
  | 68 => ⟨S600000x128, .f32⟩
  | 69 => ⟨S_, .f32⟩
  | 70 => ⟨S600000x128, .f32⟩
  | 71 => ⟨S600000x128, .f32⟩
  | 72 => ⟨S600000x128, .f32⟩
  | 73 => ⟨S1x128, .f32⟩
  | 74 => ⟨S600000x128, .f32⟩
  | 75 => ⟨S600000x128, .f32⟩
  | 76 => ⟨S_, .f32⟩
  | 77 => ⟨S50000x128, .f32⟩
  | 78 => ⟨S600000x1, .i32⟩
  | 79 => ⟨S50000x128, .f32⟩
  | 80 => ⟨S50000x128, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S_, .f32⟩
  | 91 => ⟨S50000x128, .f32⟩
  | 92 => ⟨S600000x1, .i32⟩
  | 93 => ⟨S50000x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_1 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_call1_cst : Ref sig .tc := ⟨.hbm, 69, rfl⟩
abbrev main_call1_v0 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_2 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_c_3 : Ref sig .tc := ⟨.hbm, 81, rfl⟩
abbrev main_v36 : Ref sig .tc := ⟨.hbm, 82, rfl⟩
abbrev main_v37 : Ref sig .tc := ⟨.hbm, 83, rfl⟩
abbrev main_c_4 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_5 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_6 : Ref sig .tc := ⟨.hbm, 99, rfl⟩
abbrev main_v51 : Ref sig .tc := ⟨.hbm, 100, rfl⟩
abbrev main_cst_7 : Ref sig .tc := ⟨.hbm, 101, rfl⟩
abbrev main_v52 : Ref sig .tc := ⟨.hbm, 102, rfl⟩
abbrev main_v53 : Ref sig .tc := ⟨.hbm, 103, rfl⟩
abbrev main_c_8 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_cst_1 : Ref sig .tc := ⟨.hbm, 115, rfl⟩
abbrev main_call2_v8 : Ref sig .tc := ⟨.hbm, 116, rfl⟩
abbrev main_call2_cst_2 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_cst_3 : Ref sig .tc := ⟨.hbm, 121, rfl⟩
abbrev main_call2_v12 : Ref sig .tc := ⟨.hbm, 122, rfl⟩
abbrev main_call2_cst_4 : Ref sig .tc := ⟨.hbm, 123, rfl⟩
abbrev main_call2_call0_v0 : Ref sig .tc := ⟨.hbm, 124, rfl⟩
abbrev main_call2_call0_v1 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_cst_9 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_call3_cst : Ref sig .tc := ⟨.hbm, 143, rfl⟩
abbrev main_call3_v0 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_cst_10 : Ref sig .tc := ⟨.hbm, 150, rfl⟩
abbrev main_v75 : Ref sig .tc := ⟨.hbm, 151, rfl⟩
abbrev main_cst_11 : Ref sig .tc := ⟨.hbm, 152, rfl⟩
abbrev main_v76 : Ref sig .tc := ⟨.hbm, 153, rfl⟩
abbrev main_v77 : Ref sig .tc := ⟨.hbm, 154, rfl⟩
abbrev main_c_12 : Ref sig .tc := ⟨.hbm, 155, rfl⟩
abbrev main_call4_cst : Ref sig .tc := ⟨.hbm, 156, rfl⟩
abbrev main_call4_v0 : Ref sig .tc := ⟨.hbm, 157, rfl⟩
abbrev main_call4_v1 : Ref sig .tc := ⟨.hbm, 158, rfl⟩
abbrev main_call4_cst_0 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_call4_v5 : Ref sig .tc := ⟨.hbm, 163, rfl⟩
abbrev main_call4_v6 : Ref sig .tc := ⟨.hbm, 164, rfl⟩
abbrev main_call4_v7 : Ref sig .tc := ⟨.hbm, 165, rfl⟩
abbrev main_call4_cst_1 : Ref sig .tc := ⟨.hbm, 166, rfl⟩
abbrev main_call4_v8 : Ref sig .tc := ⟨.hbm, 167, rfl⟩
abbrev main_call4_cst_2 : Ref sig .tc := ⟨.hbm, 168, rfl⟩
abbrev main_call4_v9 : Ref sig .tc := ⟨.hbm, 169, rfl⟩
abbrev main_call4_v10 : Ref sig .tc := ⟨.hbm, 170, rfl⟩
abbrev main_call4_v11 : Ref sig .tc := ⟨.hbm, 171, rfl⟩
abbrev main_call4_cst_3 : Ref sig .tc := ⟨.hbm, 172, rfl⟩
abbrev main_call4_v12 : Ref sig .tc := ⟨.hbm, 173, rfl⟩
abbrev main_call4_cst_4 : Ref sig .tc := ⟨.hbm, 174, rfl⟩
abbrev main_call4_call0_v0 : Ref sig .tc := ⟨.hbm, 175, rfl⟩
abbrev main_call4_call0_v1 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_cst_13 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_call5_cst : Ref sig .tc := ⟨.hbm, 194, rfl⟩
abbrev main_call5_v0 : Ref sig .tc := ⟨.hbm, 195, rfl⟩
abbrev main_v94 : Ref sig .tc := ⟨.hbm, 196, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  reducesTo_S600000x128_S128_d0 : S600000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S600000_S600000x1_0 : S600000.BroadcastsInDim S600000x1 (![0] : Fin 1 → Fin S600000x1.rank)
  bcast_S_S600000 : S_.BroadcastsInDim S600000 (![] : Fin 0 → Fin S600000.rank)
  bcast_S1x128_S50000x128_0_1 : S1x128.BroadcastsInDim S50000x128 (![0, 1] : Fin 2 → Fin S50000x128.rank)
  reducesTo_S50000x128_S128_d0 : S50000x128.ReducesTo [0] S128
  dot_S600000x16_S16x128_S600000x128_1_0_0_1_n_n_wf : DotDims.WF S600000x16 S16x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  dot_S50000x128_S128x128_S50000x128_1_0_0_1_n_n_wf : DotDims.WF S50000x128 S128x128 S50000x128 [1] [0] [0] [1] [] []

variable [Facts₀]

def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibWholeStore.lean ====
import Idealize.ShloMosaic.Lib.Pipeline.FrameBody
import Idealize.ShloMosaic.Lib.Pipeline.Value

namespace Cert.WholeStore

open Idealize.ShloMosaic

/-- The zero offsets of an access to a whole rank-2 buffer. -/
theorem zeros2 : (![0, 0] : Fin 2 → Nat) = fun _ => 0 := funext fun a => by fin_cases a <;> rfl

/-- A load of a whole rank-2 buffer reads its contents. -/
theorem ld2 {Val : EltTy → Type} {e : EltTy} {d : Fin 2 → ℕ} (inb) (X : (⟨2, d⟩ : Shape).Idx → Val e) :
    View.ld X (Rect.unit ![0, 0] d inb) = X := View.ld_unit_zero zeros2 inb X

variable {Val : EltTy → Type} [∀ e, Nonempty (Val e)] {S : Shape} {e : EltTy} {sg : RefSig} {κ : Kind} {sp : Space}
  (v : View sg κ sp S e) {off : Fin S.rank → Nat} (h : off = fun _ => 0) (inb : ∀ a, off a + S.size a ≤ S.size a)
  (w : S.Idx → Val e) (L : List (View.Piece Val S e))

include h

/-- A list of stores whose last (its head) goes through the whole-buffer rectangle covers the buffer. -/
theorem cover_cons (y : S.Idx) : ∃ p ∈ ((⟨Rect.unit off S.size inb, w⟩ : View.Piece Val S e) :: L), y ∈ p.1.set :=
  ⟨_, List.mem_cons_self, View.mem_set_unit_zero h inb y⟩

/-- After such stores the buffer reads as the last store's payload: a whole-buffer store overwrites everything. -/
theorem read_writes_cons (f : v.ty.Contents Val) :
    v.read Val (v.writes Val f ((⟨Rect.unit off S.size inb, w⟩ : View.Piece Val S e) :: L)) = w := by
  rw [View.read_writes_eq_canon _ _ _ (cover_cons h inb w L), View.canon_cons_unit_zero h]

/-- A whole-buffer load after such stores reads the last store's payload. -/
theorem readCov_cons :
    v.readCov ((⟨Rect.unit off S.size inb, w⟩ : View.Piece Val S e) :: L) (Rect.unit off S.size inb).toLoadRect = w := by
  rw [View.readCov_eq_canon_ld _ _ _ (cover_cons h inb w L), View.canon_cons_unit_zero h, View.ld_unit_zero h]

end Cert.WholeStore
-- ==== Proof.KBits.Region0.lean ====
import proofs.«416878_j12463995093413_1_alg».proof.Proof.LibWholeStore
import proofs.«416878_j12463995093413_1_alg».proof.Proof.Gen.Kernel.Launch
import proofs.«416878_j12463995093413_1_alg».proof.Proof.Gen.Kernel.Skeleton
import proofs.«416878_j12463995093413_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

noncomputable section

namespace Cert.Kernel.Hand

open Cert.Kernel Cert.Kernel.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's test for the first point, on the grid coordinate. -/
abbrev cond_r0 (i : grid0.Coords) : Prop :=
  (Scalar.cmpi .ne (Scalar.extui (Scalar.cmpi .eq (BitVec.ofNat 32 (i 0).val) 0#32)) 0#32) = 1#1

theorem hcond_r0 : ∀ t : Fin cfg0.N, cond_r0 (grid0.coords t) ↔ t.val = 0 :=
  (by decide +kernel : ∀ t : Fin grid0.N, cond_r0 (grid0.coords t) ↔ t.val = 0)

/-- The body leaves y in both accumulators and both outputs: the block's column sums of x and x * x added to zero at the first point, to s1 and s2 later. -/
theorem sound_kernel0 (c : Dev nD) (E : Set ℕ) (i : grid0.Coords)
    (arg1 : Memref sig .tc .vmem S6000x16 .f32) (arg2 : Memref sig .tc .vmem S16x128 .f32) (arg3 arg4 arg5 arg6 arg7 : Memref sig .tc .vmem S1x128 .f32)
    (harg1 : arg1.IsWhole) (harg2 : arg2.IsWhole) (harg3 : arg3.IsWhole) (harg4 : arg4.IsWhole) (harg5 : arg5.IsWhole) (harg6 : arg6.IsWhole) (harg7 : arg7.IsWhole)
    (x0 : Vec F S6000x16 .f32) (x1 : Vec F S16x128 .f32) (x2 d4 d5 s1 s2 : Vec F S1x128 .f32) (y : Vec F S1x128 .f32 × Vec F S1x128 .f32)
    (hy : y = if cond_r0 i then (k0_pay4 x0 x1 x2 k0_pay1, k0_pay5 x0 x1 x2 k0_pay2) else (k0_pay4 x0 x1 x2 s1, k0_pay5 x0 x1 x2 s2))
    (K : PUnit → sProp 𝕄) :
    iprop(owns c.tc arg1 fullShare x0 ∗ owns c.tc arg2 fullShare x1 ∗ owns c.tc arg3 fullShare x2
        ∗ owns c.tc arg4 fullShare d4 ∗ owns c.tc arg5 fullShare d5
        ∗ owns c.tc arg6 fullShare s1 ∗ owns c.tc arg7 fullShare s2
        ∗ (iprop(owns c.tc arg1 fullShare x0 ∗ owns c.tc arg2 fullShare x1 ∗ owns c.tc arg3 fullShare x2
            ∗ owns c.tc arg4 fullShare y.1 ∗ owns c.tc arg5 fullShare y.2
            ∗ owns c.tc arg6 fullShare y.1 ∗ owns c.tc arg7 fullShare y.2) -∗ K ⟨⟩))
      ⊢ wp frame (wpE (defs₀ (F := F)) Variants.none c none) E (cc0__ee_stats_kernel i arg1 harg1 arg2 harg2 arg3 harg3 arg4 harg4 arg5 harg5 arg6 harg6 arg7 harg7) K := by
  simp only [cc0__ee_stats_kernel_eq_skeleton, cc0__ee_stats_kernel_skel, k0_part1_eq_skeleton]
  unfold owns
  iintro ⟨⟨%f0, %hf0, H0⟩, ⟨%f1, %hf1, H1⟩, ⟨%f2, %hf2, H2⟩, ⟨%f3, -, H3⟩, ⟨%f4, -, H4⟩, ⟨%f5, %hf5, H5⟩, ⟨%f6, %hf6, H6⟩, Hk⟩
  subst hf0 hf1 hf2 hf5 hf6
  by_cases hc : cond_r0 i
  all_goals
    first | rw [if_pos hc] at hy | rw [if_neg hc] at hy
    subst hy
    sl_exec (disch := first | exact hc)
    sl_step
    iapply Hk
    isplitl [H0]; swap; isplitl [H1]; swap; isplitl [H2]; swap; isplitl [H3]; swap; isplitl [H4]; swap; isplitl [H5]
    all_goals
      iexists _; isplitr; swap; iassumption
      ipureintro
      sl_unfold_run_names
      simp only [read_writes_cons (S := S1x128) _ zeros2, readCov_cons (S := S1x128) _ zeros2, View.readAt_eq_ld, ld2]

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def accAt0 (c : Dev nD) : (n : ℕ) → n < cfg0.N → Vec F S1x128 .f32 × Vec F S1x128 .f32
  | 0, hn => (k0_pay4 (iblk0 V c 0 ⟨0, hn⟩) (iblk0 V c 1 ⟨0, hn⟩) (iblk0 V c 2 ⟨0, hn⟩) (k0_pay1 (F := F)),
      k0_pay5 (iblk0 V c 0 ⟨0, hn⟩) (iblk0 V c 1 ⟨0, hn⟩) (iblk0 V c 2 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (accAt0 c n (Nat.lt_of_succ_lt hn)).1,
      k0_pay5 (iblk0 V c 0 ⟨n + 1, hn⟩) (iblk0 V c 1 ⟨n + 1, hn⟩) (iblk0 V c 2 ⟨n + 1, hn⟩) (accAt0 c n (Nat.lt_of_succ_lt hn)).2)

/-- The invariant around what is said of the two accumulators, P. -/
abbrev inv_r0 (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0, cc0_scratch1]) ∗ (∃ r, prngReg c r))

theorem PhiA0_eq (c : Dev nD) : (Pipeline.ΦA spec0 c : sProp 𝕄)
    = inv_r0 c iprop((∃ d, owns c.tc (Memref.whole cc0_scratch0) fullShare d) ∗ (∃ d, owns c.tc (Memref.whole cc0_scratch1) fullShare d)) := by
  unfold Pipeline.ΦA; rw [scopedRest0_split]; simp only [owns_whole]

/-- Before position n the accumulators hold what position n - 1 left; before the first, anything. -/
def PhiS_r0 (c : Dev nD) : (n : ℕ) → n ≤ cfg0.N → sProp 𝕄
  | 0, _ => Pipeline.ΦA spec0 c
  | n + 1, hn => inv_r0 c iprop(owns c.tc (Memref.whole cc0_scratch0) fullShare (accAt0 V c n hn).1 ∗ owns c.tc (Memref.whole cc0_scratch1) fullShare (accAt0 V c n hn).2)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (accAt0 V c t.val t.isLt).1
    | ⟨4, _⟩ => (accAt0 V c t.val t.isLt).2
  Φ t := PhiS_r0 V c t.val (Nat.le_of_lt_succ t.isLt)
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = (accAt0 V c t.val t.isLt).1 := rfl
theorem after0_4 (c : Dev nD) (t : Fin cfg0.N) : (dat0 V c).after 4 t = (accAt0 V c t.val t.isLt).2 := rfl

/-- The body finds each input at what it leaves there. -/
theorem before0 (c : Dev nD) : ∀ w : Fin cfg0.W, w.val < 3 → ∀ t d, (dat0 V c).before w t d = (dat0 V c).after w t
  | ⟨0, _⟩, _, t, d | ⟨1, _⟩, _, t, d | ⟨2, _⟩, _, t, d =>
    ((dat0 V c).before_in_eq_fetched _ rfl (fun _ => rfl) (fun _ _ _ => rfl) (fun _ => rfl) t d).trans rfl
  | ⟨_ + 3, _⟩, h, _, _ => absurd h (Nat.not_lt.2 (Nat.le_add_left _ _))

theorem Phi_eq (c : Dev nD) (k : Fin (cfg0.N + 1)) : (dat0 V c).Φ k = PhiS_r0 V c k.val (Nat.le_of_lt_succ k.isLt) := rfl

theorem body_obligation0 (c : Dev nD) : BodyObligation (dat0 (F := F) V c) (defs₀ (F := F)) Variants.none () Set.univ := by
  rintro ⟨n, hn⟩
  rw [bigSep_W0, bigSep_W0, show (dat0 V c).owesAt () (Fin.succ ⟨n, hn⟩) = (dat0 V c).owesAt () (Fin.castSucc ⟨n, hn⟩) from rfl]
  sl_whnfR [defs₀, Defs.onTc]
  have k := sound_kernel0 (F := F) (x0 := (dat0 V c).after 0 ⟨n, hn⟩) (x1 := (dat0 V c).after 1 ⟨n, hn⟩) (x2 := (dat0 V c).after 2 ⟨n, hn⟩) (y := accAt0 V c n hn)
  rcases n with _ | n <;>
    simp (disch := decide) only [before0, after0_3, after0_4, Phi_eq, Fin.val_succ, Fin.coe_castSucc, PhiS_r0, PhiA0_eq, inv_r0] <;>
    iintro ⟨HΦ, Ho, ⟨%_, H0⟩, ⟨%_, H1⟩, ⟨%_, H2⟩, ⟨%_, H3⟩, ⟨%_, H4⟩⟩
  on_goal 1 =>
    icases HΦ with ⟨⟨⟨⟨%_, HS0⟩, ⟨%_, HS1⟩⟩, HR⟩, Hg⟩
    iapply k (hy := (if_pos ((hcond_r0 ⟨0, hn⟩).mpr rfl)).symm)
    iframe
  on_goal 2 =>
    icases HΦ with ⟨⟨⟨HS0, HS1⟩, HR⟩, Hg⟩
    iapply k (hy := (if_neg fun h => Nat.succ_ne_zero n ((hcond_r0 ⟨n + 1, hn⟩).mp h)).symm)
    iframe
  all_goals
    iintro ⟨H0, H1, H2, H3, H4, HS0, HS1⟩
    iframe

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [PhiA0_eq]; exact sep_mono (sep_mono (sep_mono (exists_intro _) (exists_intro _)) .rfl) .rfl

end Cert.Kernel.Hand

end
-- ==== Proof.KBits.Region1.lean ====
import proofs.«416878_j12463995093413_1_alg».proof.Proof.Gen.Kernel.Launch
import proofs.«416878_j12463995093413_1_alg».proof.Proof.Gen.Kernel.Skeleton
import proofs.«416878_j12463995093413_1_alg».proof.Proof.Gen.Kernel.Points
import proofs.«416878_j12463995093413_1_alg».proof.Proof.LibWholeStore
import Idealize.ShloMosaic.Lib.Pipeline.TableIdle
import Idealize.ShloMosaic.Lib.Ring

noncomputable section

namespace Cert.Kernel.Hand

open Cert.Kernel Cert.Kernel.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_9 (x0 : Vec F S6000x16 .f32) (x1 : Vec F S16x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) : Vec F S6000x128 .f32 :=
  k1_pay1 (k1_pay2 x0 x1 x2 x4 x3 x5 x6 x7) (k1_pay3 x8)

/-- The body reads the nine inputs `I` whole, leaves them as they were, and stores `out1_9` of them over the whole output. -/
theorem sound_kernel1 {c : Dev nD} {E i a0 a1 a2 a3 a4 a5 a6 a7 a8 a9 h0 h1 h2 h3 h4 h5 h6 h7 h8 h9 x0 x1 x2 x3 x4 x5 x6 x7 x8 d K} {I : sProp (MT nD τ sig Unit (Elt F) ℕ (UR sig nD τ) ℕ)}
    (hI : I = iprop(ownsTc c a0 fullShare x0 ∗ ownsTc c a1 fullShare x1 ∗ ownsTc c a2 fullShare x2 ∗ ownsTc c a3 fullShare x3 ∗ ownsTc c a4 fullShare x4 ∗ ownsTc c a5 fullShare x5 ∗ ownsTc c a6 fullShare x6 ∗ ownsTc c a7 fullShare x7 ∗ ownsTc c a8 fullShare x8)) :
    iprop(I ∗ ownsTc c a9 fullShare d ∗ (iprop(I ∗ ownsTc c a9 fullShare (out1_9 x0 x1 x2 x3 x4 x5 x6 x7 x8)) -∗ K ⟨⟩))
      ⊢ wp frame (wpE (defs₀ (F := F)) Variants.none c none) E (cc1__ee_main_kernel i a0 h0 a1 h1 a2 h2 a3 h3 a4 h4 a5 h5 a6 h6 a7 h7 a8 h8 a9 h9) K := by
  subst hI
  simp only [cc1__ee_main_kernel_eq_skeleton]; unfold cc1__ee_main_kernel_skel
  simp only [k1_part1_eq_skeleton, ownsTc, owns_eq_rep]; unfold k1_part1_skel
  iintro ⟨⟨H0, H1, H2, H3, H4, H5, H6, H7, H8⟩, H9, Hk⟩
  sl_exec
  sl_step
  iapply Hk
  iframe
  rw [← owns_eq_rep]; unfold owns
  iexists _; isplitr; swap; · iexact H9
  ipureintro
  rw [read_writes_cons _ zeros2]
  simp only [View.readAt_eq_ld, View.read_rep, ld2]
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := rfl

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := rfl

/-- What the body reads of an input at a point is that input's block there, so the triple above applies at the blocks. -/
theorem before1 (c : Dev nD) (w : Fin cfg1.W) (hw : (cfg1.win w).isOut = false) (t : Fin cfg1.N) (d) :
    (dat1 V c).before w t d = (dat1 V c).after w t := by
  fin_cases w <;> first
    | exact ((dat1 V c).before_in_eq_fetched _ rfl (fun _ => rfl) (fun _ _ _ => rfl) (fun _ => rfl) t d).trans rfl
    | cases hw

theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl]
  simp +decide only [before1 V c]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩⟩
  iapply sound_kernel1 rfl
  iframe
  iintro ⟨⟨H0, H1, H2, H3, H4, H5, H6, H7, H8⟩, H9⟩
  iframe
  isplitl [Ho]; · iexact Ho
  iexact H9

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.Kernel.Hand

end
-- ==== Proof.KBits.Region2.lean ====
import proofs.«416878_j12463995093413_1_alg».proof.Proof.Gen.Kernel.Launch
import proofs.«416878_j12463995093413_1_alg».proof.Proof.Gen.Kernel.Skeleton
import proofs.«416878_j12463995093413_1_alg».proof.Proof.Gen.Kernel.Points
import proofs.«416878_j12463995093413_1_alg».proof.Proof.LibWholeStore
import Idealize.ShloMosaic.Lib.Pipeline.Frame
import Idealize.ShloMosaic.Lib.Ring
import Idealize.ShloMosaic.Lib.Tactic

noncomputable section

namespace Cert.Kernel.Hand

open Cert.Kernel Cert.Kernel.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The condition of the body's one branch; over the grid it holds exactly at the first point. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

set_option maxHeartbeats 1000000 in
/-- The body adds the block's column sums and sums of squares onto `a0`, `a1` (the zero rows under the condition, else what the accumulators held) and copies both to the outputs. -/
theorem sound_kernel2 {c : Dev nD} {E : Set ℕ} {i : grid2.Coords}
    {arg1 : Memref sig .tc .vmem S5000x128 .f32} {harg1 : arg1.IsWhole} {arg2 : Memref sig .tc .vmem S5000x128 .f32} {harg2 : arg2.IsWhole}
    {arg3 : Memref sig .tc .vmem S128x128 .f32} {harg3 : arg3.IsWhole} {arg4 : Memref sig .tc .vmem S1x128 .f32} {harg4 : arg4.IsWhole}
    {arg5 : Memref sig .tc .vmem S1x128 .f32} {harg5 : arg5.IsWhole} {arg6 : Memref sig .tc .vmem S1x128 .f32} {harg6 : arg6.IsWhole}
    {arg7 : Memref sig .tc .vmem S1x128 .f32} {harg7 : arg7.IsWhole} {arg8 : Memref sig .tc .vmem S1x128 .f32} {harg8 : arg8.IsWhole}
    {x0 x1 : Vec F S5000x128 .f32} {x2 : Vec F S128x128 .f32} {x3 o0 o1 s0 s1 a0 a1 : Vec F S1x128 .f32} {K : PUnit → sProp 𝕄}
    (h : cond2_0 i ∧ a0 = k2_pay1 ∧ a1 = k2_pay2 ∨ ¬cond2_0 i ∧ a0 = s0 ∧ a1 = s1) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare o0 ∗ owns (c : Thread nD τ) arg6 fullShare o1 ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay4 x0 x1 x2 x3 a0) ∗ owns (c : Thread nD τ) arg6 fullShare (k2_pay5 x0 x1 x2 x3 a1)
            ∗ owns (c : Thread nD τ) arg7 fullShare (k2_pay4 x0 x1 x2 x3 a0) ∗ owns (c : Thread nD τ) arg8 fullShare (k2_pay5 x0 x1 x2 x3 a1)) -∗ K ⟨⟩))
      ⊢ wp frame (wpE (defs₀ (F := F)) Variants.none c none) E (cc2__gin_stats1_kernel i arg1 harg1 arg2 harg2 arg3 harg3 arg4 harg4 arg5 harg5 arg6 harg6 arg7 harg7 arg8 harg8) K := by
  simp only [cc2__gin_stats1_kernel_eq_skeleton]; unfold cc2__gin_stats1_kernel_skel
  simp only [k2_part1_eq_skeleton]
  unfold owns
  iintro ⟨⟨%f0, %e0, H0⟩, ⟨%f1, %e1, H1⟩, ⟨%f2, %e2, H2⟩, ⟨%f3, %e3, H3⟩, ⟨%f4, -, H4⟩, ⟨%f5, -, H5⟩, ⟨%f6, %e6, H6⟩, ⟨%f7, %e7, H7⟩, Hk⟩
  subst e0 e1 e2 e3 e6 e7
  obtain ⟨hc, rfl, rfl⟩ | ⟨hc, rfl, rfl⟩ := h <;>
  · sl_exec (disch := exact hc)
    sl_step
    iapply Hk
    isplitl [H0]; rotate_left; isplitl [H1]; rotate_left; isplitl [H2]; rotate_left; isplitl [H3]; rotate_left
    isplitl [H4]; rotate_left; isplitl [H5]; rotate_left; isplitl [H6]; rotate_left
    all_goals
      iexists _; isplitr; swap; iassumption; ipureintro
      first | rfl | (sl_unfold_words; simp only [read_writes_cons (S := S1x128) _ zeros2, readCov_cons (S := S1x128) _ zeros2, View.readAt_eq_ld, ld2])

/-- Window `w`'s block, at point `t`, of the contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2_0 (c : Dev nD) (t : Fin cfg2.N) : Vec F S5000x128 .f32 := iblk2 V c 0 t
abbrev xb2_1 (c : Dev nD) (t : Fin cfg2.N) : Vec F S5000x128 .f32 := iblk2 V c 1 t
abbrev xb2_2 (c : Dev nD) (t : Fin cfg2.N) : Vec F S128x128 .f32 := iblk2 V c 2 t
abbrev xb2_3 (c : Dev nD) (t : Fin cfg2.N) : Vec F S1x128 .f32 := iblk2 V c 3 t

/-- The running column sums after point `n`. -/
def sumAt2 (c : Dev nD) : (n : ℕ) → n < cfg2.N → Vec F S1x128 .f32
  | 0, h => k2_pay4 (xb2_0 V c ⟨0, h⟩) (xb2_1 V c ⟨0, h⟩) (xb2_2 V c ⟨0, h⟩) (xb2_3 V c ⟨0, h⟩) (k2_pay1 (F := F))
  | n + 1, h => k2_pay4 (xb2_0 V c ⟨n + 1, h⟩) (xb2_1 V c ⟨n + 1, h⟩) (xb2_2 V c ⟨n + 1, h⟩) (xb2_3 V c ⟨n + 1, h⟩) (sumAt2 c n (Nat.lt_of_succ_lt h))

/-- The running column sums of squares after point `n`. -/
def sqAt2 (c : Dev nD) : (n : ℕ) → n < cfg2.N → Vec F S1x128 .f32
  | 0, h => k2_pay5 (xb2_0 V c ⟨0, h⟩) (xb2_1 V c ⟨0, h⟩) (xb2_2 V c ⟨0, h⟩) (xb2_3 V c ⟨0, h⟩) (k2_pay2 (F := F))
  | n + 1, h => k2_pay5 (xb2_0 V c ⟨n + 1, h⟩) (xb2_1 V c ⟨n + 1, h⟩) (xb2_2 V c ⟨n + 1, h⟩) (xb2_3 V c ⟨n + 1, h⟩) (sqAt2 c n (Nat.lt_of_succ_lt h))

abbrev scM2_0 : Memref sig .tc .vmem S1x128 .f32 := Memref.whole cc2_scratch0
abbrev scM2_1 : Memref sig .tc .vmem S1x128 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

/-- What the region is entered with, the two accumulators split off, each owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 (F := F) c) ∗ (∃ r, prngReg c r)) := by
  unfold Pipeline.ΦA; rw [scopedRest2_split]; simp only [scM2_0, scM2_1, owns_whole]; try rfl

/-- The invariant before point `n`: the accumulators at the running sums the point before left (at anything before the first). -/
def PhiS2 (c : Dev nD) : (n : ℕ) → n ≤ cfg2.N → sProp 𝕄
  | 0, _ => Pipeline.ΦA spec2 c
  | n + 1, hn => iprop(iprop(iprop(owns (c : Thread nD τ) scM2_0 fullShare (sumAt2 V c n hn) ∗ owns (c : Thread nD τ) scM2_1 fullShare (sqAt2 V c n hn)) ∗ rest2 (F := F) c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => sumAt2 V c t.val t.isLt
    | ⟨5, _⟩ => sqAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = sumAt2 V c t.val t.isLt := by dsimp only [dat2]
theorem after2_5 (c : Dev nD) (t : Fin cfg2.N) : (dat2 V c).after 5 t = sqAt2 V c t.val t.isLt := by dsimp only [dat2]

/-- Each input window holds its block of `V` at every point: the body leaves it as found. -/
theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ ∀ d, (dat2 V c).before 3 t d = iblk2 V c 3 t := by
  refine ⟨?_, ?_, ?_, ?_⟩ <;>
    exact fun d => (Dat.before_in_eq_fetched _ _ rfl (fun _ => rfl) (fun _ _ _ => rfl) (fun _ => rfl) t d).trans rfl

theorem body_obligation2 (c : Dev nD) : BodyObligation (dat2 (F := F) V c) (defs₀ (F := F)) Variants.none () Set.univ := fun t => by
  rewrite [bigSep_W2, bigSep_W2, show (dat2 V c).owesAt () t.succ = (dat2 V c).owesAt () t.castSucc from rfl]
  obtain ⟨b0, b1, b2, b3⟩ := before2 V c t
  simp only [b0, b1, b2, b3]
  obtain ⟨_ | n, hn⟩ := t <;> simp only [dat2, Fin.coe_castSucc, Fin.val_succ, PhiS2, sumAt2, sqAt2]
  · rewrite [PhiA2_eq]
    iintro ⟨⟨⟨⟨⟨%s0, HS0⟩, %s1, HS1⟩, Hr⟩, Hg⟩, Ho, ⟨%d0, H0⟩, ⟨%d1, H1⟩, ⟨%d2, H2⟩, ⟨%d3, H3⟩, ⟨%d4, H4⟩, ⟨%d5, H5⟩⟩
    iapply sound_kernel2 (.inl ⟨(hcond2_0 ⟨0, hn⟩).mpr rfl, rfl, rfl⟩)
    iframe
    iintro ⟨H0, H1, H2, H3, H4, H5, HS0, HS1⟩
    iframe
  · iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
    iapply sound_kernel2 (.inr ⟨fun h => by have : (n + 1) % 10 = 0 := (hcond2_0 ⟨n + 1, hn⟩).mp h; have := hn.trans_eq (N_2 : cfg2.N = 10); omega, rfl, rfl⟩)
    iframe
    iintro ⟨H0, H1, H2, H3, H4, H5, HS0, HS1⟩
    iframe

theorem hin2 (c : Dev nD) : Pipeline.ΦA spec2 c ⊢ (dat2 V c).Φ 0 := .rfl

/-- After the last point the invariant gives back what the region was entered with: the accumulators' contents are forgotten. -/
theorem hout2 (c : Dev nD) : (dat2 V c).Φ (Fin.last cfg2.N) ⊢ Pipeline.ΦA spec2 c := by
  rewrite [PhiA2_eq]
  exact sep_mono (sep_mono (sep_mono (exists_intro _) (exists_intro _)) .rfl) .rfl

end Cert.Kernel.Hand

end
-- ==== Proof.KBits.Region3.lean ====
import proofs.«416878_j12463995093413_1_alg».proof.Proof.Gen.Kernel.Launch
import proofs.«416878_j12463995093413_1_alg».proof.Proof.Gen.Kernel.Skeleton
import proofs.«416878_j12463995093413_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Pipeline.TableIdle
import Idealize.ShloMosaic.Lib.Ring
import Idealize.ShloMosaic.Lib.Tactic
import proofs.«416878_j12463995093413_1_alg».proof.Proof.LibWholeStore

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's test for the first block. -/
abbrev cond_r3 (i : grid3.Coords) : Prop :=
  (Scalar.cmpi .ne (Scalar.extui (Scalar.cmpi .eq (BitVec.ofNat 32 (i 0).val) 0#32)) 0#32) = 1#1

theorem hcond_r3 : ∀ t : Fin cfg3.N, cond_r3 (grid3.coords t) ↔ t.val = 0 :=
  (by decide +kernel : ∀ t : Fin grid3.N, cond_r3 (grid3.coords t) ↔ t.val = 0)

/-- The block whose column sums are taken, as a function of the eight operand blocks it is computed from. -/
def xblk_r3 (x0 x1 : Vec F S5000x128 .f32) (x2 : Vec F S128x128 .f32) (x3 x4 x5 x6 x7 : Vec F S1x128 .f32) : FVec F S5000x128 .f32 :=
  k3_pay6 x0 x1 x2 x3 x5 x4 x6 x7

/-- One step: the operands are left as they are, and both pairs of sums become the block's column sums and column sums of squares added to `s'`, `q'` — zero at the first block, the previous sums `s`, `q` afterwards. -/
theorem sound_kernel3 (c : Dev nD) {E : Set ℕ} {i : grid3.Coords} {arg1 arg2 : Memref sig .tc .vmem S5000x128 .f32} {arg3 arg9 : Memref sig .tc .vmem S128x128 .f32} {arg4 arg5 arg6 arg7 arg8 arg10 arg11 arg12 arg13 arg14 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole}
    {x0 x1 : Vec F S5000x128 .f32} {x2 : Vec F S128x128 .f32} {x3 x4 x5 x6 x7 : Vec F S1x128 .f32} {x8 : Vec F S128x128 .f32} {x9 d0 d1 s q s' q' : Vec F S1x128 .f32}
    (h : cond_r3 i ∧ s' = k3_pay4 ∧ q' = k3_pay5 ∨ ¬cond_r3 i ∧ s' = s ∧ q' = q) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare x6 ∗ owns c.tc arg8 fullShare x7 ∗ owns c.tc arg9 fullShare x8
        ∗ owns c.tc arg10 fullShare x9 ∗ owns c.tc arg11 fullShare d0 ∗ owns c.tc arg12 fullShare d1
        ∗ owns c.tc arg13 fullShare s ∗ owns c.tc arg14 fullShare q
        ∗ (iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare x6 ∗ owns c.tc arg8 fullShare x7 ∗ owns c.tc arg9 fullShare x8
        ∗ owns c.tc arg10 fullShare x9
            ∗ owns c.tc arg11 fullShare (k3_pay2 (xblk_r3 x0 x1 x2 x3 x4 x5 x6 x7) x8 x9 s')
            ∗ owns c.tc arg12 fullShare (k3_pay3 (xblk_r3 x0 x1 x2 x3 x4 x5 x6 x7) x8 x9 q')
            ∗ owns c.tc arg13 fullShare (k3_pay2 (xblk_r3 x0 x1 x2 x3 x4 x5 x6 x7) x8 x9 s')
            ∗ owns c.tc arg14 fullShare (k3_pay3 (xblk_r3 x0 x1 x2 x3 x4 x5 x6 x7) x8 x9 q')) -∗ K ⟨⟩))
      ⊢ wp frame (wpE (defs₀ (F := F)) Variants.none c none) E (cc3__gin_stats2_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc3__gin_stats2_kernel_eq_skeleton]; unfold cc3__gin_stats2_kernel_skel
  simp only [k3_part1_eq_skeleton]; unfold k3_part1_skel
  simp only [owns_eq_rep]
  iintro ⟨H0, H1, H2, H3, H4, H5, H6, H7, H8, H9, H10, H11, H12, H13, Hk⟩
  obtain ⟨hc, rfl, rfl⟩ | ⟨hc, rfl, rfl⟩ := h <;>
  · sl_exec (disch := exact hc)
    sl_step
    iapply Hk
    iframe
    simp only [← owns_eq_rep]
    unfold owns
    isplitl [H10]
    on_goal 2 => isplitl [H11]
    on_goal 3 => isplitl [H12]
    all_goals
      iexists _; isplitr; swap; iassumption
      ipureintro
      sl_unfold_words
      refine (read_writes_cons _ zeros2 _ _ _ _).trans ?_
      simp only [readCov_cons (S := S1x128) _ zeros2, View.readAt_eq_ld, ld2, xblk_r3, View.read_rep]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def xb_r3 (c : Dev nD) (t : Fin cfg3.N) : FVec F S5000x128 .f32 :=
  xblk_r3 (iblk3 V c 0 t) (iblk3 V c 1 t) (iblk3 V c 2 t) (iblk3 V c 3 t) (iblk3 V c 4 t) (iblk3 V c 5 t) (iblk3 V c 6 t) (iblk3 V c 7 t)

/-- The running column sums and column sums of squares after block `n`, by recursion on `n`. -/
def acc_r3 (c : Dev nD) : (n : ℕ) → n < cfg3.N → Vec F S1x128 .f32 × Vec F S1x128 .f32
  | 0, hn => (k3_pay2 (xb_r3 V c ⟨0, hn⟩) (iblk3 V c 8 ⟨0, hn⟩) (iblk3 V c 9 ⟨0, hn⟩) k3_pay4,
      k3_pay3 (xb_r3 V c ⟨0, hn⟩) (iblk3 V c 8 ⟨0, hn⟩) (iblk3 V c 9 ⟨0, hn⟩) k3_pay5)
  | n + 1, hn => (k3_pay2 (xb_r3 V c ⟨n + 1, hn⟩) (iblk3 V c 8 ⟨n + 1, hn⟩) (iblk3 V c 9 ⟨n + 1, hn⟩) (acc_r3 c n (Nat.lt_of_succ_lt hn)).1,
      k3_pay3 (xb_r3 V c ⟨n + 1, hn⟩) (iblk3 V c 8 ⟨n + 1, hn⟩) (iblk3 V c 9 ⟨n + 1, hn⟩) (acc_r3 c n (Nat.lt_of_succ_lt hn)).2)

abbrev scM_r3_0 : Memref sig .tc .vmem S1x128 .f32 := Memref.whole cc3_scratch0
abbrev scM_r3_1 : Memref sig .tc .vmem S1x128 .f32 := Memref.whole cc3_scratch1

theorem PhiA3_eq (c : Dev nD) :
    (Pipeline.ΦA spec3 c : sProp 𝕄)
      = iprop(iprop(iprop((∃ d, owns c.tc scM_r3_0 fullShare d) ∗ (∃ d, owns c.tc scM_r3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM_r3_0, scM_r3_1, owns_whole]; rfl

/-- Before block `n` the two accumulators hold the sums over the blocks before it; before the first, anything. -/
def PhiS3 (c : Dev nD) : (n : ℕ) → n ≤ cfg3.N → sProp 𝕄
  | 0, _ => Pipeline.ΦA spec3 c
  | n + 1, hn => iprop(iprop(iprop(owns (c : Thread nD τ) scM_r3_0 fullShare ((acc_r3 V c n hn).1) ∗ owns (c : Thread nD τ) scM_r3_1 fullShare ((acc_r3 V c n hn).2))
      ∗ Pipeline.scopedRestBut (Ix := Unit) (Name := ℕ) (U := UR sig nD τ) (Lvl := ℕ) (Val := Elt F) spec3 c [cc3_scratch0, cc3_scratch1])
      ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => (acc_r3 V c t.val t.isLt).1
    | ⟨11, _⟩ => (acc_r3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_10 (c : Dev nD) (t : Fin cfg3.N) : (dat3 V c).after 10 t = (acc_r3 V c t.val t.isLt).1 := by dsimp only [dat3]
theorem after3_11 (c : Dev nD) (t : Fin cfg3.N) : (dat3 V c).after 11 t = (acc_r3 V c t.val t.isLt).2 := by dsimp only [dat3]

/-- A step leaves every operand block as it finds it, so what an operand holds before a step is what it holds after. -/
theorem before3 (c : Dev nD) (t : Fin cfg3.N) : ∀ w : Fin 12, w.val < 10 → ∀ d, (dat3 V c).before w t d = (dat3 V c).after w t := by
  intro w hw
  fin_cases w <;> first
    | exact absurd hw (by decide)
    | exact fun d => ((dat3 V c).before_in_eq_fetched _ rfl (fun _ => rfl) (fun _ _ _ => rfl) (fun _ => rfl) t d).trans rfl

/-- A step at block `t` takes the invariant before `t` to the invariant before `t + 1`. -/
theorem body_obligation3 (c : Dev nD) : BodyObligation (dat3 (F := F) V c) (defs₀ (F := F)) Variants.none () Set.univ := fun t => by
  rw [bigSep_W3, bigSep_W3]
  simp (disch := decide) only [before3 V c t]
  rw [after3_10, after3_11, show (dat3 V c).owesAt () t.succ = (dat3 V c).owesAt () t.castSucc from rfl,
    show (dat3 V c).Φ t.succ = PhiS3 V c (t.val + 1) t.isLt from rfl,
    show (dat3 V c).Φ t.castSucc = PhiS3 V c t.val (Nat.le_of_lt t.isLt) from rfl]
  show _ ⊢ wp _ _ _ (bodyAt3 t) _
  dsimp only [dat3]
  obtain ⟨_ | n, hn⟩ := t <;> simp only [PhiS3, acc_r3, xb_r3, PhiA3_eq]
  all_goals
    iintro ⟨⟨⟨⟨HS0, HS1⟩, HR⟩, Hg⟩, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩⟩
    first
    | (icases HS0 with ⟨%_, HS0⟩; icases HS1 with ⟨%_, HS1⟩; iapply sound_kernel3 c (.inl ⟨(hcond_r3 _).mpr rfl, rfl, rfl⟩))
    | iapply sound_kernel3 c (.inr ⟨fun h => Nat.succ_ne_zero _ ((hcond_r3 _).mp h), rfl, rfl⟩)
    iframe
    iintro ⟨H0, H1, H2, H3, H4, H5, H6, H7, H8, H9, H10, H11, HS0, HS1⟩
    iframe

theorem hin3 (c : Dev nD) : Pipeline.ΦA spec3 c ⊢ (dat3 V c).Φ 0 := .rfl

/-- After the last block the accumulators' contents are forgotten. -/
theorem hout3 (c : Dev nD) : (dat3 V c).Φ (Fin.last cfg3.N) ⊢ Pipeline.ΦA spec3 c := by
  rw [show (dat3 V c).Φ (Fin.last cfg3.N) = PhiS3 V c (9 + 1) (by decide) from rfl, PhiS3, PhiA3_eq]
  exact sep_mono_left (sep_mono_left (sep_mono (exists_intro _) (exists_intro _)))

end Cert.Kernel.Hand

end
-- ==== Proof.KBits.Region4.lean ====
import proofs.«416878_j12463995093413_1_alg».proof.Proof.Gen.Kernel.Launch
import proofs.«416878_j12463995093413_1_alg».proof.Proof.Gen.Kernel.Skeleton
import proofs.«416878_j12463995093413_1_alg».proof.Proof.Gen.Kernel.Points
import proofs.«416878_j12463995093413_1_alg».proof.Proof.LibWholeStore
import Idealize.ShloMosaic.Lib.Pipeline.TableIdle
import Idealize.ShloMosaic.Lib.Ring

noncomputable section

namespace Cert.Kernel.Hand

open Cert.Kernel Cert.Kernel.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_14 (x0 x1 : Vec F S5000x128 .f32) (x2 : Vec F S128x128 .f32) (x3 x4 x5 x6 x7 : Vec F S1x128 .f32) (x8 : Vec F S128x128 .f32) (x9 x10 x11 x12 x13 : Vec F S1x128 .f32) : Vec F S5000x128 .f32 :=
  k4_pay1 (k4_pay2 x0 x1 x2 x3 x5 x4 x6 x7) (k4_pay3 x8) (constant S5000x128 .f32 0x00000000#32) x9 x11 x10 x12 x13

section
variable (c : Dev nD) (a1 a2 a15 : Memref sig .tc .vmem S5000x128 .f32) (a3 a9 : Memref sig .tc .vmem S128x128 .f32)
  (a4 a5 a6 a7 a8 a10 a11 a12 a13 a14 : Memref sig .tc .vmem S1x128 .f32)
  (x0 x1 d : Vec F S5000x128 .f32) (x2 x8 : Vec F S128x128 .f32) (x3 x4 x5 x6 x7 x9 x10 x11 x12 x13 : Vec F S1x128 .f32)

/-- The fourteen inputs, each owned whole at its contents. -/
def ins4 : sProp 𝕄 :=
  iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a10 fullShare x9 ∗ owns c a11 fullShare x10 ∗ owns c a12 fullShare x11 ∗ owns c a13 fullShare x12 ∗ owns c a14 fullShare x13)

/-- The body reads every input whole and stores `out4_14` of them over the whole output. -/
theorem sound_kernel4 {E : Set ℕ} {i : grid4.Coords} {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {h13 : a13.IsWhole} {h14 : a14.IsWhole} {h15 : a15.IsWhole} {K : PUnit → sProp 𝕄} :
    iprop(ins4 c a1 a2 a3 a9 a4 a5 a6 a7 a8 a10 a11 a12 a13 a14 x0 x1 x2 x8 x3 x4 x5 x6 x7 x9 x10 x11 x12 x13 ∗ owns c a15 fullShare d
        ∗ (iprop(ins4 c a1 a2 a3 a9 a4 a5 a6 a7 a8 a10 a11 a12 a13 a14 x0 x1 x2 x8 x3 x4 x5 x6 x7 x9 x10 x11 x12 x13 ∗ owns c a15 fullShare (out4_14 x0 x1 x2 x3 x4 x5 x6 x7 x8 x9 x10 x11 x12 x13)) -∗ K ⟨⟩))
      ⊢ wp frame (wpE (defs₀ (F := F)) Variants.none c none) E (cc4__gin_final_kernel i a1 h1 a2 h2 a3 h3 a4 h4 a5 h5 a6 h6 a7 h7 a8 h8 a9 h9 a10 h10 a11 h11 a12 h12 a13 h13 a14 h14 a15 h15) K := by
  simp only [cc4__gin_final_kernel_eq_skeleton]; unfold cc4__gin_final_kernel_skel
  simp only [k4_part1_eq_skeleton, ins4, owns_eq_rep]; unfold k4_part1_skel
  iintro ⟨⟨H0, H1, H2, H3, H4, H5, H6, H7, H8, H9, H10, H11, H12, H13⟩, H14, Hk⟩
  sl_exec
  sl_step
  iapply Hk
  iframe H0 H1 H2 H3 H4 H5 H6 H7 H8 H9 H10 H11 H12 H13
  istop
  rw [pointsTo_rep (c : Thread nD τ) a15 (a15.view.writes _ _ _), read_writes_cons _ zeros2]
  sl_unfold_words
  simp only [View.readAt_eq_ld, View.read_rep, ld2]
  exact .rfl

end

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_14 (c : Dev nD) (t : Fin cfg4.N) : (dat4 V c).after 14 t = out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) := by dsimp only [dat4]

/-- The body leaves every input block as it found it. -/
theorem before4 (c : Dev nD) (w : Fin cfg4.W) (hw : (cfg4.win w).isOut = false) (t : Fin cfg4.N) (d) :
    (dat4 V c).before w t d = (dat4 V c).after w t := by
  refine ((dat4 V c).before_in_eq_fetched w hw (fun _ => rfl) ?_ ?_ t d).trans ?_ <;> fin_cases w <;>
    first | (intros; rfl) | exact absurd hw (by decide)

theorem body_obligation4 (c : Dev nD) : BodyObligation (dat4 (F := F) V c) (defs₀ (F := F)) Variants.none () Set.univ := fun t => by
  rewrite [bigSep_W4, bigSep_W4, show (dat4 V c).Φ t.succ = (dat4 V c).Φ t.castSucc from rfl,
    show (dat4 V c).owesAt () t.succ = (dat4 V c).owesAt () t.castSucc from rfl]
  simp (disch := exact rfl) only [before4 V c]
  change _ ⊢ wp _ _ _ (bodyAt4 t) _
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%d, H14⟩⟩
  iapply (sound_kernel4 c _ _ _ _ _ _ _ _ _ _ _ _ _ _ _ ((dat4 V c).after 0 t) ((dat4 V c).after 1 t) ((dat4 V c).before 14 t d) ((dat4 V c).after 2 t) ((dat4 V c).after 8 t) ((dat4 V c).after 3 t) ((dat4 V c).after 4 t) ((dat4 V c).after 5 t) ((dat4 V c).after 6 t) ((dat4 V c).after 7 t) ((dat4 V c).after 9 t) ((dat4 V c).after 10 t) ((dat4 V c).after 11 t) ((dat4 V c).after 12 t) ((dat4 V c).after 13 t))
  unfold ins4
  iframe H0 H1 H2 H3 H4 H5 H6 H7 H8 H9 H10 H11 H12 H13 H14
  iintro ⟨⟨H0, H1, H2, H3, H4, H5, H6, H7, H8, H9, H10, H11, H12, H13⟩, H14⟩
  iframe HΦ Ho H0 H1 H2 H3 H4 H5 H6 H7 H8 H9 H10 H11 H12 H13
  iexact H14

theorem hin4 (c : Dev nD) : Pipeline.ΦA spec4 c ⊢ (dat4 V c).Φ 0 := .rfl

theorem hout4 (c : Dev nD) : (dat4 V c).Φ (Fin.last cfg4.N) ⊢ Pipeline.ΦA spec4 c := .rfl

end Cert.Kernel.Hand

end
-- ==== Proof.KBits.Segs.lean ====
import proofs.«416878_j12463995093413_1_alg».proof.Proof.Gen.Kernel.Regions
import proofs.«416878_j12463995093413_1_alg».proof.Proof.KBits.Region0
import proofs.«416878_j12463995093413_1_alg».proof.Proof.KBits.Region1
import proofs.«416878_j12463995093413_1_alg».proof.Proof.KBits.Region2
import proofs.«416878_j12463995093413_1_alg».proof.Proof.KBits.Region3
import proofs.«416878_j12463995093413_1_alg».proof.Proof.KBits.Region4
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
def W2 (c : Dev nD) : Valuation τ sig (Elt F) :=
  Pipeline.withArrays spec0 c (W1 m c) fun w => (dat0 (fun c b => W1 m c b) c).arrAt w cfg0.N
abbrev W3 (c : Dev nD) : Valuation τ sig (Elt F) := StableHlo.after hostOps1 (W2 m c)
def W4 (c : Dev nD) : Valuation τ sig (Elt F) :=
  Pipeline.withArrays spec1 c (W3 m c) fun w => (dat1 (fun c b => W3 m c b) c).arrAt w cfg1.N
abbrev W5 (c : Dev nD) : Valuation τ sig (Elt F) := StableHlo.after hostOps2 (W4 m c)
abbrev W6 (c : Dev nD) : Valuation τ sig (Elt F) := StableHlo.after hostOps2_1 (W5 m c)
abbrev W7 (c : Dev nD) : Valuation τ sig (Elt F) := StableHlo.after hostOps2_2 (W6 m c)
def W8 (c : Dev nD) : Valuation τ sig (Elt F) :=
  Pipeline.withArrays spec2 c (W7 m c) fun w => (dat2 (fun c b => W7 m c b) c).arrAt w cfg2.N
abbrev W9 (c : Dev nD) : Valuation τ sig (Elt F) := StableHlo.after hostOps3 (W8 m c)
def W10 (c : Dev nD) : Valuation τ sig (Elt F) :=
  Pipeline.withArrays spec3 c (W9 m c) fun w => (dat3 (fun c b => W9 m c b) c).arrAt w cfg3.N
abbrev W11 (c : Dev nD) : Valuation τ sig (Elt F) := StableHlo.after hostOps4 (W10 m c)
def W12 (c : Dev nD) : Valuation τ sig (Elt F) :=
  Pipeline.withArrays spec4 c (W11 m c) fun w => (dat4 (fun c b => W11 m c b) c).arrAt w cfg4.N

def outs : Outs (F := F) := fun J r c =>
  match J with
  | 2 => W2 m c r
  | 4 => W4 m c r
  | 8 => W8 m c r
  | 10 => W10 m c r
  | 12 => W12 m c r
  | _ => W1 m c r

def pdats : (p : Fin 5) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W7 m c b) c
  | ⟨3, _⟩ => fun c => dat3 (fun c b => W9 m c b) c
  | ⟨4, _⟩ => fun c => dat4 (fun c b => W11 m c b) c

abbrev 𝒱₀ : Variants := Variants.none
abbrev L : GSem nD τ sig → Finset Unit := fun _ => ∅
abbrev lv : GSem nD τ sig → Unit → ℕ := fun _ _ => 0

abbrev onRefs (W : Dev nD → Valuation τ sig (Elt F)) (c : Dev nD) (b : Ref sig .tc) : Buf (Elt F) ((c : Thread nD τ).loc b) := W c b

-- `V` with region `p`'s arrays replaced by their final contents.
abbrev exit (p : Fin 5) (V : Dev nD → Valuation τ sig (Elt F)) (c : Dev nD) : Valuation τ sig (Elt F) :=
  Pipeline.withArrays (cfgs p).spec c (V c) fun w => (pdats m p c).arrAt w (cfgs p).N

theorem free : ∀ (p : Fin 5) (c : Dev nD), (∀ t, (pdats m p c).owed t = 0) ∧ (∀ w, (pdats m p c).q w = fullShare) ∧ ∀ t, (pdats m p c).recorded t = Set.univ
  | ⟨0, _⟩, _ | ⟨1, _⟩, _ | ⟨2, _⟩, _ | ⟨3, _⟩, _ | ⟨4, _⟩, _ => ⟨fun _ => rfl, fun _ => rfl, fun _ => rfl⟩

-- What region `p`'s own module proves about it, read at entry contents `V`.
structure Facts (p : Fin 5) (V : Dev nD → Valuation τ sig (Elt F)) : Prop where
  l : Pipeline.LaunchFacts (nD := nD) (τ := τ) cfgs p
  hb : ∀ c, BodyObligation (pdats m p c) (defs₀ (F := F)) 𝒱₀ () Set.univ
  hA : ∀ c w, (pdats m p c).A w = V c (Pipeline.arrRef (cfgs p).spec w)
  hi : ∀ c, Pipeline.ΦA (cfgs p).spec c ⊢ (pdats m p c).Φ 0
  hl : ∀ c, (pdats m p c).Φ (Fin.last (cfgs p).N) ⊢ Pipeline.ΦA (cfgs p).spec c

theorem f0 : Facts m 0 (W1 m) := let V := onRefs (W1 m); ⟨launch0, body_obligation0 V, A_eq0 V, hin0 V, hout0 V⟩
theorem f1 : Facts m 1 (W3 m) := let V := onRefs (W3 m); ⟨launch1, body_obligation1 V, A_eq1 V, hin1 V, hout1 V⟩
theorem f2 : Facts m 2 (W7 m) := let V := onRefs (W7 m); ⟨launch2, body_obligation2 V, A_eq2 V, hin2 V, hout2 V⟩
theorem f3 : Facts m 3 (W9 m) := let V := onRefs (W9 m); ⟨launch3, body_obligation3 V, A_eq3 V, hin3 V, hout3 V⟩
theorem f4 : Facts m 4 (W11 m) := let V := onRefs (W11 m); ⟨launch4, body_obligation4 V, A_eq4 V, hin4 V, hout4 V⟩

-- An array that is no output ends at its entry contents, which `f.hA` reads off `V`; off the arrays `withArrays` is `V`.
variable {m} in
theorem other {p : Fin 5} {V : Dev nD → Valuation τ sig (Elt F)} (f : Facts m p V) (c : Dev nD) (x : DevRef τ sig)
    (hx : ∀ w, ((cfgs p).win w).isOut ≠ false → (Proc.devRef .tc (Pipeline.arrRef (cfgs p).spec w) : DevRef τ sig) ≠ x) :
    exit m p V c x = V c x := by
  by_cases h : ∃ w, Proc.devRef .tc (Pipeline.arrRef (cfgs p).spec w) = x
  · obtain ⟨w, rfl⟩ := h
    rw [exit, Pipeline.withArrays_arr _ f.l.win.arr_inj]
    by_cases hw : ((cfgs p).win w).isOut = false
    · exact ((pdats m p c).arrAt_in w hw _).trans (f.hA c w)
    · exact absurd rfl (hx w hw)
  · exact dif_neg h

theorem W2_other (c : Dev nD) (x : DevRef τ sig) (h0 : x ≠ main_v14_0) (h1 : x ≠ main_v14_1) : W2 m c x = W1 m c x :=
  other (f0 m) c x fun (w : Fin 5) hw => by
    obtain rfl | rfl : w = 3 ∨ w = 4 := by revert hw; revert w; decide
    exacts [h0.symm, h1.symm]

theorem W4_other (c : Dev nD) (x : DevRef τ sig) (h0 : x ≠ main_v21) : W4 m c x = W3 m c x :=
  other (f1 m) c x fun (w : Fin 10) hw => by
    obtain rfl : w = 9 := by revert hw; revert w; decide
    exact h0.symm

theorem W8_other (c : Dev nD) (x : DevRef τ sig) (h0 : x ≠ main_v30_0) (h1 : x ≠ main_v30_1) : W8 m c x = W7 m c x :=
  other (f2 m) c x fun (w : Fin 6) hw => by
    obtain rfl | rfl : w = 4 ∨ w = 5 := by revert hw; revert w; decide
    exacts [h0.symm, h1.symm]

theorem W10_other (c : Dev nD) (x : DevRef τ sig) (h0 : x ≠ main_v37_0) (h1 : x ≠ main_v37_1) : W10 m c x = W9 m c x :=
  other (f3 m) c x fun (w : Fin 12) hw => by
    obtain rfl | rfl : w = 10 ∨ w = 11 := by revert hw; revert w; decide
    exacts [h0.symm, h1.symm]

theorem W12_other (c : Dev nD) (x : DevRef τ sig) (h0 : x ≠ main_v44) : W12 m c x = W11 m c x :=
  other (f4 m) c x fun (w : Fin 15) hw => by
    obtain rfl : w = 14 := by revert hw; revert w; decide
    exact h0.symm

-- `Function.update_eq_iff`, the new value being the target's own.
theorem upd {α : Type _} [DecidableEq α] {β : α → Type _} {V V' W : ∀ a, β a} {a : α} (e : V' = V)
    (h : ∀ x, x ≠ a → W x = V x) : Function.update V' a (W a) = W :=
  e ▸ Function.update_eq_iff.2 ⟨rfl, fun x hx => (h x hx).symm⟩

theorem upd2 {α : Type _} [DecidableEq α] {β : α → Type _} {V V' W : ∀ a, β a} {a b : α} (e : V' = V)
    (h : ∀ x, x ≠ a → x ≠ b → W x = V x) : Function.update (Function.update V' a (W a)) b (W b) = W :=
  upd rfl fun x hb => by
    by_cases ha : x = a
    · subst ha; exact (Function.update_self ..).symm
    · rw [Function.update_of_ne ha, e]; exact h x ha hb

theorem V2_eq (c : Dev nD) : V2 m (outs m) c = W2 m c := upd2 rfl (W2_other m c)
theorem V3_eq (c : Dev nD) : V3 m (outs m) c = W3 m c := congrArg (StableHlo.after hostOps1) (V2_eq m c)
theorem V4_eq (c : Dev nD) : V4 m (outs m) c = W4 m c := upd (V3_eq m c) (W4_other m c)
theorem V7_eq (c : Dev nD) : V7 m (outs m) c = W7 m c :=
  congrArg (StableHlo.after hostOps2_2) (congrArg (StableHlo.after hostOps2_1) (congrArg (StableHlo.after hostOps2) (V4_eq m c)))
theorem V8_eq (c : Dev nD) : V8 m (outs m) c = W8 m c := upd2 (V7_eq m c) (W8_other m c)
theorem V9_eq (c : Dev nD) : V9 m (outs m) c = W9 m c := congrArg (StableHlo.after hostOps3) (V8_eq m c)
theorem V10_eq (c : Dev nD) : V10 m (outs m) c = W10 m c := upd2 (V9_eq m c) (W10_other m c)
theorem V11_eq (c : Dev nD) : V11 m (outs m) c = W11 m c := congrArg (StableHlo.after hostOps4) (V10_eq m c)
theorem V12_eq (c : Dev nD) : V12 m (outs m) c = W12 m c := upd (V11_eq m c) (W12_other m c)

abbrev R (c : Dev nD) : sProp 𝕄 := iprop((∃ r, prngReg c r) ∗ ∃ W, owes (c : Thread nD τ) (0 : CellTallies nD τ sig Unit) W)

-- One record serves every region: the regions differ only in their `Facts`.
set_option backward.isDefEq.respectTransparency.types false in
def reg {p : Fin 5} {V : Dev nD → Valuation τ sig (Elt F)} (f : Facts m p V) :
    Pipeline.RegionSeg (pcfgs (F := F)) adm (pdats m) () defs₀ 𝒱₀ L lv p where
  win := f.l.win.to₀
  block_pos := f.l.block_pos
  stage_whole := f.l.stage_whole
  K := PEmpty
  osem k := k.elim
  ho := Pipeline.OwnSemFacts.none _
  hbody c := (f.hb c).loose
  hwaits := Pipeline.hwaits_of_owed_zero _ _ _ _ L lv p fun c => (free m p c).1
  pre c := iprop(StableHlo.held (c : Thread nD τ) (Pipeline.ucRefs τ sig) (V c) ∗ R c)
  post c := iprop(StableHlo.held (c : Thread nD τ) (Pipeline.ucRefs τ sig) (exit m p V c) ∗ R c)
  X c := iprop(∃ r, prngReg c r)
  Y c := iprop(∃ r, prngReg c r)
  Z c := Pipeline.unscopedRest (cfgs p).spec c (fun b => V c b)
  hentry c := by
    rw [Pipeline.ownSems0_none]
    have hsplit := Pipeline.arrays_of_unscopedBufs (p := p) (pcfgs (F := F)) adm (pdats m) f.l.win f.l.arr_whole c
      ((pdats m p c).share_full (free m p c).2.1) (fun b => V c b) (f.hA c)
    rw [Pipeline.unscopedBufs_held] at hsplit
    iintro ⟨⟨Hub, Hp, HO⟩, -, -⟩
    ihave ⟨Ha, Hrest⟩ := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun x _ => Or.inl ((free m p c).2.2 0 ▸ Set.mem_univ x)
      rw [(free m p c).1 0]
      iexact HO
    isplitl [Hp]; · iexact Hp
    iexact Hrest
  hin c := (sep_mono .rfl sep_elim_right).trans (sep_comm.1.trans (f.hi c))
  hout c := by
    rw [Pipeline.ownSems0_none]
    exact (f.hl c).trans (sep_comm.1.trans (sep_mono_right BIClass.emp_sep.2))
  hexit c := by
    have hjoin := Pipeline.unscopedBufs_of_arrays (p := p) (pcfgs (F := F)) adm f.l.win f.l.arr_whole c (pdats m)
      ((pdats m p c).share_full (free m p c).2.1) (fun b => V c b) (fun b => exit m p V c b) ((pdats m p c).arrAt · (cfgs p).N)
      (fun w => (Pipeline.withArrays_arr (cfgs p).spec f.l.win.arr_inj c (V c) ((pdats m p c).arrAt · (cfgs p).N) w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [(free m p c).1 (Fin.last _)]
    iexact HO

abbrev u₀ : UR sig nD τ := initOf (Pipeline.cells cfgs cellOf_inj) (Pipeline.launchToks cfgs cellOf_inj)

theorem hu₀ : (ownU u₀ : sProp 𝕄) ⊢ |={Set.univ}=> iprop(BI.own (emb₁ u₀) ∗ bigSep Finset.univ fun _ : Dev nD => (BI.emp : sProp 𝕄)) := by
  iintro Hu; imodintro
  isplitl [Hu]
  · iapply (show (ownU u₀ : sProp 𝕄) ⊢ BI.own (emb₁ u₀) from .rfl)
    iexact Hu
  rw [BI.bigSep_emp_const]
  iempintro

variable (ρ : Dev nD → PrngReg)

theorem hE0 : iprop((bigSep Finset.univ fun c : Dev nD => iprop(unscopedSems0 c ∗ owes (c : Thread nD τ) (0 : CellTallies nD τ sig Unit) ∅ ∗ Pipeline.launchCred 0 c ∗ prngReg c (ρ c) ∗ BI.emp)) ∗ levAts L lv)
    ⊢ (|={Set.univ}=> bigSep Finset.univ R : sProp 𝕄) :=
  Pipeline.initEach L lv fun c => by
    iintro ⟨⟨-, HO, -, Hp, -⟩, -⟩
    imodintro
    isplitl [Hp]; · iexists _; iexact Hp
    iexists ∅; iexact HO

abbrev same (s : (ℓ : Loc nD τ sig) → Buf (Elt F) ℓ) (c : Dev nD) (x : Ref sig .tc) : Prop :=
  s ((c.tc : Thread nD τ).loc x) = m ((c.tc : Thread nD τ).loc x)

-- Every argument array holds in `s` what it holds in `m`.
abbrev kept (s : (ℓ : Loc nD τ sig) → Buf (Elt F) ℓ) (c : Dev nD) : Prop :=
  same m s c main_arg0 ∧ same m s c main_arg1 ∧ same m s c main_arg2 ∧ same m s c main_arg3 ∧ same m s c main_arg4 ∧ same m s c main_arg5 ∧ same m s c main_arg6 ∧ same m s c main_arg7 ∧ same m s c main_arg8 ∧ same m s c main_arg9 ∧ same m s c main_arg10 ∧ same m s c main_arg11 ∧ same m s c main_arg12 ∧ same m s c main_arg13 ∧ same m s c main_arg14 ∧ same m s c main_arg15 ∧ same m s c main_arg16

set_option backward.isDefEq.respectTransparency.types false in
theorem frame : θ_run defs (onTc (τ := τ) (main (F := F))) ⟨m, fun _ => 0, ρ⟩ (fun r => ∀ c : Dev nD, kept m r.2.mem c) :=
  frame_cond m emb₁ () 𝒱₀ L lv (fun _ _ => rfl) ρ (outs m) (pdats m) 0 _ _ hu₀ (fun _ => R) (hE0 ρ) (fun _ => sep_elim_right)
    (reg m (f0 m)) (fun _ => .rfl) (fun c => V2_eq m c ▸ .rfl)
    (reg m (f1 m)) (fun c => V3_eq m c ▸ .rfl) (fun c => V4_eq m c ▸ .rfl)
    (reg m (f2 m)) (fun c => V7_eq m c ▸ .rfl) (fun c => V8_eq m c ▸ .rfl)
    (reg m (f3 m)) (fun c => V9_eq m c ▸ .rfl) (fun c => V10_eq m c ▸ .rfl)
    (reg m (f4 m)) (fun c => V11_eq m c ▸ .rfl) (fun c => V12_eq m c ▸ .rfl)

end Cert.Kernel.Hand

end
-- ==== Proof.KIdeal.Region0.lean ====
import proofs.«416878_j12463995093413_1_alg».proof.Proof.LibWholeStore
import proofs.«416878_j12463995093413_1_alg».proof.Proof.Gen.KernelIdeal.Launch
import proofs.«416878_j12463995093413_1_alg».proof.Proof.Gen.KernelIdeal.Skeleton
import proofs.«416878_j12463995093413_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's test for the first point, on the grid coordinate. -/
abbrev cond_r0 (i : grid0.Coords) : Prop :=
  (Scalar.cmpi .ne (Scalar.extui (Scalar.cmpi .eq (BitVec.ofNat 32 (i 0).val) 0#32)) 0#32) = 1#1

theorem hcond_r0 : ∀ t : Fin cfg0.N, cond_r0 (grid0.coords t) ↔ t.val = 0 :=
  (by decide +kernel : ∀ t : Fin grid0.N, cond_r0 (grid0.coords t) ↔ t.val = 0)

/-- The body leaves y in both accumulators and both outputs: the block's column sums of x and x * x added to zero at the first point, to s1 and s2 later. -/
theorem sound_kernel0 (c : Dev nD) (E : Set ℕ) (i : grid0.Coords)
    (arg1 : Memref sig .tc .vmem S6000x16 .f32) (arg2 : Memref sig .tc .vmem S16x128 .f32) (arg3 arg4 arg5 arg6 arg7 : Memref sig .tc .vmem S1x128 .f32)
    (harg1 : arg1.IsWhole) (harg2 : arg2.IsWhole) (harg3 : arg3.IsWhole) (harg4 : arg4.IsWhole) (harg5 : arg5.IsWhole) (harg6 : arg6.IsWhole) (harg7 : arg7.IsWhole)
    (x0 : Vec F S6000x16 .f32) (x1 : Vec F S16x128 .f32) (x2 d4 d5 s1 s2 : Vec F S1x128 .f32) (y : Vec F S1x128 .f32 × Vec F S1x128 .f32)
    (hy : y = if cond_r0 i then (k0_pay4 x0 x1 x2 k0_pay1, k0_pay5 x0 x1 x2 k0_pay2) else (k0_pay4 x0 x1 x2 s1, k0_pay5 x0 x1 x2 s2))
    (K : PUnit → sProp 𝕄) :
    iprop(owns c.tc arg1 fullShare x0 ∗ owns c.tc arg2 fullShare x1 ∗ owns c.tc arg3 fullShare x2
        ∗ owns c.tc arg4 fullShare d4 ∗ owns c.tc arg5 fullShare d5
        ∗ owns c.tc arg6 fullShare s1 ∗ owns c.tc arg7 fullShare s2
        ∗ (iprop(owns c.tc arg1 fullShare x0 ∗ owns c.tc arg2 fullShare x1 ∗ owns c.tc arg3 fullShare x2
            ∗ owns c.tc arg4 fullShare y.1 ∗ owns c.tc arg5 fullShare y.2
            ∗ owns c.tc arg6 fullShare y.1 ∗ owns c.tc arg7 fullShare y.2) -∗ K ⟨⟩))
      ⊢ wp frame (wpE (defs₀ (F := F)) Variants.none c none) E (cc0__ee_stats_kernel i arg1 harg1 arg2 harg2 arg3 harg3 arg4 harg4 arg5 harg5 arg6 harg6 arg7 harg7) K := by
  simp only [cc0__ee_stats_kernel_eq_skeleton, cc0__ee_stats_kernel_skel, k0_part1_eq_skeleton]
  unfold owns
  iintro ⟨⟨%f0, %hf0, H0⟩, ⟨%f1, %hf1, H1⟩, ⟨%f2, %hf2, H2⟩, ⟨%f3, -, H3⟩, ⟨%f4, -, H4⟩, ⟨%f5, %hf5, H5⟩, ⟨%f6, %hf6, H6⟩, Hk⟩
  subst hf0 hf1 hf2 hf5 hf6
  by_cases hc : cond_r0 i
  all_goals
    first | rw [if_pos hc] at hy | rw [if_neg hc] at hy
    subst hy
    sl_exec (disch := first | exact hc)
    sl_step
    iapply Hk
    isplitl [H0]; swap; isplitl [H1]; swap; isplitl [H2]; swap; isplitl [H3]; swap; isplitl [H4]; swap; isplitl [H5]
    all_goals
      iexists _; isplitr; swap; iassumption
      ipureintro
      sl_unfold_run_names
      simp only [read_writes_cons (S := S1x128) _ zeros2, readCov_cons (S := S1x128) _ zeros2, View.readAt_eq_ld, ld2]

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def accAt0 (c : Dev nD) : (n : ℕ) → n < cfg0.N → Vec F S1x128 .f32 × Vec F S1x128 .f32
  | 0, hn => (k0_pay4 (iblk0 V c 0 ⟨0, hn⟩) (iblk0 V c 1 ⟨0, hn⟩) (iblk0 V c 2 ⟨0, hn⟩) (k0_pay1 (F := F)),
      k0_pay5 (iblk0 V c 0 ⟨0, hn⟩) (iblk0 V c 1 ⟨0, hn⟩) (iblk0 V c 2 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (accAt0 c n (Nat.lt_of_succ_lt hn)).1,
      k0_pay5 (iblk0 V c 0 ⟨n + 1, hn⟩) (iblk0 V c 1 ⟨n + 1, hn⟩) (iblk0 V c 2 ⟨n + 1, hn⟩) (accAt0 c n (Nat.lt_of_succ_lt hn)).2)

/-- The invariant around what is said of the two accumulators, P. -/
abbrev inv_r0 (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0, cc0_scratch1]) ∗ (∃ r, prngReg c r))

theorem PhiA0_eq (c : Dev nD) : (Pipeline.ΦA spec0 c : sProp 𝕄)
    = inv_r0 c iprop((∃ d, owns c.tc (Memref.whole cc0_scratch0) fullShare d) ∗ (∃ d, owns c.tc (Memref.whole cc0_scratch1) fullShare d)) := by
  unfold Pipeline.ΦA; rw [scopedRest0_split]; simp only [owns_whole]

/-- Before position n the accumulators hold what position n - 1 left; before the first, anything. -/
def PhiS_r0 (c : Dev nD) : (n : ℕ) → n ≤ cfg0.N → sProp 𝕄
  | 0, _ => Pipeline.ΦA spec0 c
  | n + 1, hn => inv_r0 c iprop(owns c.tc (Memref.whole cc0_scratch0) fullShare (accAt0 V c n hn).1 ∗ owns c.tc (Memref.whole cc0_scratch1) fullShare (accAt0 V c n hn).2)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (accAt0 V c t.val t.isLt).1
    | ⟨4, _⟩ => (accAt0 V c t.val t.isLt).2
  Φ t := PhiS_r0 V c t.val (Nat.le_of_lt_succ t.isLt)
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = (accAt0 V c t.val t.isLt).1 := rfl
theorem after0_4 (c : Dev nD) (t : Fin cfg0.N) : (dat0 V c).after 4 t = (accAt0 V c t.val t.isLt).2 := rfl

/-- The body finds each input at what it leaves there. -/
theorem before0 (c : Dev nD) : ∀ w : Fin cfg0.W, w.val < 3 → ∀ t d, (dat0 V c).before w t d = (dat0 V c).after w t
  | ⟨0, _⟩, _, t, d | ⟨1, _⟩, _, t, d | ⟨2, _⟩, _, t, d =>
    ((dat0 V c).before_in_eq_fetched _ rfl (fun _ => rfl) (fun _ _ _ => rfl) (fun _ => rfl) t d).trans rfl
  | ⟨_ + 3, _⟩, h, _, _ => absurd h (Nat.not_lt.2 (Nat.le_add_left _ _))

theorem Phi_eq (c : Dev nD) (k : Fin (cfg0.N + 1)) : (dat0 V c).Φ k = PhiS_r0 V c k.val (Nat.le_of_lt_succ k.isLt) := rfl

theorem body_obligation0 (c : Dev nD) : BodyObligation (dat0 (F := F) V c) (defs₀ (F := F)) Variants.none () Set.univ := by
  rintro ⟨n, hn⟩
  rw [bigSep_W0, bigSep_W0, show (dat0 V c).owesAt () (Fin.succ ⟨n, hn⟩) = (dat0 V c).owesAt () (Fin.castSucc ⟨n, hn⟩) from rfl]
  sl_whnfR [defs₀, Defs.onTc]
  have k := sound_kernel0 (F := F) (x0 := (dat0 V c).after 0 ⟨n, hn⟩) (x1 := (dat0 V c).after 1 ⟨n, hn⟩) (x2 := (dat0 V c).after 2 ⟨n, hn⟩) (y := accAt0 V c n hn)
  rcases n with _ | n <;>
    simp (disch := decide) only [before0, after0_3, after0_4, Phi_eq, Fin.val_succ, Fin.coe_castSucc, PhiS_r0, PhiA0_eq, inv_r0] <;>
    iintro ⟨HΦ, Ho, ⟨%_, H0⟩, ⟨%_, H1⟩, ⟨%_, H2⟩, ⟨%_, H3⟩, ⟨%_, H4⟩⟩
  on_goal 1 =>
    icases HΦ with ⟨⟨⟨⟨%_, HS0⟩, ⟨%_, HS1⟩⟩, HR⟩, Hg⟩
    iapply k (hy := (if_pos ((hcond_r0 ⟨0, hn⟩).mpr rfl)).symm)
    iframe
  on_goal 2 =>
    icases HΦ with ⟨⟨⟨HS0, HS1⟩, HR⟩, Hg⟩
    iapply k (hy := (if_neg fun h => Nat.succ_ne_zero n ((hcond_r0 ⟨n + 1, hn⟩).mp h)).symm)
    iframe
  all_goals
    iintro ⟨H0, H1, H2, H3, H4, HS0, HS1⟩
    iframe

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [PhiA0_eq]; exact sep_mono (sep_mono (sep_mono (exists_intro _) (exists_intro _)) .rfl) .rfl

end Cert.KernelIdeal.Hand

end
-- ==== Proof.KIdeal.Region1.lean ====
import proofs.«416878_j12463995093413_1_alg».proof.Proof.Gen.KernelIdeal.Launch
import proofs.«416878_j12463995093413_1_alg».proof.Proof.Gen.KernelIdeal.Skeleton
import proofs.«416878_j12463995093413_1_alg».proof.Proof.Gen.KernelIdeal.Points
import proofs.«416878_j12463995093413_1_alg».proof.Proof.LibWholeStore
import Idealize.ShloMosaic.Lib.Pipeline.TableIdle
import Idealize.ShloMosaic.Lib.Ring

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_9 (x0 : Vec F S6000x16 .f32) (x1 : Vec F S16x128 .f32) (x2 : Vec F S1x128 .f32) (x3 : Vec F S1x128 .f32) (x4 : Vec F S1x128 .f32) (x5 : Vec F S1x128 .f32) (x6 : Vec F S1x128 .f32) (x7 : Vec F S128x128 .f32) (x8 : Vec F S1x128 .f32) : Vec F S6000x128 .f32 :=
  k1_pay1 (k1_pay2 x0 x1 x2 x4 x3 x5 x6 x7) (k1_pay3 x8)

/-- The body reads the nine inputs `I` whole, leaves them as they were, and stores `out1_9` of them over the whole output. -/
theorem sound_kernel1 {c : Dev nD} {E i a0 a1 a2 a3 a4 a5 a6 a7 a8 a9 h0 h1 h2 h3 h4 h5 h6 h7 h8 h9 x0 x1 x2 x3 x4 x5 x6 x7 x8 d K} {I : sProp (MT nD τ sig Unit (Elt F) ℕ (UR sig nD τ) ℕ)}
    (hI : I = iprop(ownsTc c a0 fullShare x0 ∗ ownsTc c a1 fullShare x1 ∗ ownsTc c a2 fullShare x2 ∗ ownsTc c a3 fullShare x3 ∗ ownsTc c a4 fullShare x4 ∗ ownsTc c a5 fullShare x5 ∗ ownsTc c a6 fullShare x6 ∗ ownsTc c a7 fullShare x7 ∗ ownsTc c a8 fullShare x8)) :
    iprop(I ∗ ownsTc c a9 fullShare d ∗ (iprop(I ∗ ownsTc c a9 fullShare (out1_9 x0 x1 x2 x3 x4 x5 x6 x7 x8)) -∗ K ⟨⟩))
      ⊢ wp frame (wpE (defs₀ (F := F)) Variants.none c none) E (cc1__ee_main_kernel i a0 h0 a1 h1 a2 h2 a3 h3 a4 h4 a5 h5 a6 h6 a7 h7 a8 h8 a9 h9) K := by
  subst hI
  simp only [cc1__ee_main_kernel_eq_skeleton]; unfold cc1__ee_main_kernel_skel
  simp only [k1_part1_eq_skeleton, ownsTc, owns_eq_rep]; unfold k1_part1_skel
  iintro ⟨⟨H0, H1, H2, H3, H4, H5, H6, H7, H8⟩, H9, Hk⟩
  sl_exec
  sl_step
  iapply Hk
  iframe
  rw [← owns_eq_rep]; unfold owns
  iexists _; isplitr; swap; · iexact H9
  ipureintro
  rw [read_writes_cons _ zeros2]
  simp only [View.readAt_eq_ld, View.read_rep, ld2]
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := rfl

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := rfl

/-- What the body reads of an input at a point is that input's block there, so the triple above applies at the blocks. -/
theorem before1 (c : Dev nD) (w : Fin cfg1.W) (hw : (cfg1.win w).isOut = false) (t : Fin cfg1.N) (d) :
    (dat1 V c).before w t d = (dat1 V c).after w t := by
  fin_cases w <;> first
    | exact ((dat1 V c).before_in_eq_fetched _ rfl (fun _ => rfl) (fun _ _ _ => rfl) (fun _ => rfl) t d).trans rfl
    | cases hw

theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl]
  simp +decide only [before1 V c]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩⟩
  iapply sound_kernel1 rfl
  iframe
  iintro ⟨⟨H0, H1, H2, H3, H4, H5, H6, H7, H8⟩, H9⟩
  iframe
  isplitl [Ho]; · iexact Ho
  iexact H9

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.KernelIdeal.Hand

end
-- ==== Proof.KIdeal.Region2.lean ====
import proofs.«416878_j12463995093413_1_alg».proof.Proof.Gen.KernelIdeal.Launch
import proofs.«416878_j12463995093413_1_alg».proof.Proof.Gen.KernelIdeal.Skeleton
import proofs.«416878_j12463995093413_1_alg».proof.Proof.Gen.KernelIdeal.Points
import proofs.«416878_j12463995093413_1_alg».proof.Proof.LibWholeStore
import Idealize.ShloMosaic.Lib.Pipeline.Frame
import Idealize.ShloMosaic.Lib.Ring
import Idealize.ShloMosaic.Lib.Tactic

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The condition of the body's one branch; over the grid it holds exactly at the first point. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

set_option maxHeartbeats 1000000 in
/-- The body adds the block's column sums and sums of squares onto `a0`, `a1` (the zero rows under the condition, else what the accumulators held) and copies both to the outputs. -/
theorem sound_kernel2 {c : Dev nD} {E : Set ℕ} {i : grid2.Coords}
    {arg1 : Memref sig .tc .vmem S5000x128 .f32} {harg1 : arg1.IsWhole} {arg2 : Memref sig .tc .vmem S5000x128 .f32} {harg2 : arg2.IsWhole}
    {arg3 : Memref sig .tc .vmem S128x128 .f32} {harg3 : arg3.IsWhole} {arg4 : Memref sig .tc .vmem S1x128 .f32} {harg4 : arg4.IsWhole}
    {arg5 : Memref sig .tc .vmem S1x128 .f32} {harg5 : arg5.IsWhole} {arg6 : Memref sig .tc .vmem S1x128 .f32} {harg6 : arg6.IsWhole}
    {arg7 : Memref sig .tc .vmem S1x128 .f32} {harg7 : arg7.IsWhole} {arg8 : Memref sig .tc .vmem S1x128 .f32} {harg8 : arg8.IsWhole}
    {x0 x1 : Vec F S5000x128 .f32} {x2 : Vec F S128x128 .f32} {x3 o0 o1 s0 s1 a0 a1 : Vec F S1x128 .f32} {K : PUnit → sProp 𝕄}
    (h : cond2_0 i ∧ a0 = k2_pay1 ∧ a1 = k2_pay2 ∨ ¬cond2_0 i ∧ a0 = s0 ∧ a1 = s1) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare o0 ∗ owns (c : Thread nD τ) arg6 fullShare o1 ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay4 x0 x1 x2 x3 a0) ∗ owns (c : Thread nD τ) arg6 fullShare (k2_pay5 x0 x1 x2 x3 a1)
            ∗ owns (c : Thread nD τ) arg7 fullShare (k2_pay4 x0 x1 x2 x3 a0) ∗ owns (c : Thread nD τ) arg8 fullShare (k2_pay5 x0 x1 x2 x3 a1)) -∗ K ⟨⟩))
      ⊢ wp frame (wpE (defs₀ (F := F)) Variants.none c none) E (cc2__gin_stats1_kernel i arg1 harg1 arg2 harg2 arg3 harg3 arg4 harg4 arg5 harg5 arg6 harg6 arg7 harg7 arg8 harg8) K := by
  simp only [cc2__gin_stats1_kernel_eq_skeleton]; unfold cc2__gin_stats1_kernel_skel
  simp only [k2_part1_eq_skeleton]
  unfold owns
  iintro ⟨⟨%f0, %e0, H0⟩, ⟨%f1, %e1, H1⟩, ⟨%f2, %e2, H2⟩, ⟨%f3, %e3, H3⟩, ⟨%f4, -, H4⟩, ⟨%f5, -, H5⟩, ⟨%f6, %e6, H6⟩, ⟨%f7, %e7, H7⟩, Hk⟩
  subst e0 e1 e2 e3 e6 e7
  obtain ⟨hc, rfl, rfl⟩ | ⟨hc, rfl, rfl⟩ := h <;>
  · sl_exec (disch := exact hc)
    sl_step
    iapply Hk
    isplitl [H0]; rotate_left; isplitl [H1]; rotate_left; isplitl [H2]; rotate_left; isplitl [H3]; rotate_left
    isplitl [H4]; rotate_left; isplitl [H5]; rotate_left; isplitl [H6]; rotate_left
    all_goals
      iexists _; isplitr; swap; iassumption; ipureintro
      first | rfl | (sl_unfold_words; simp only [read_writes_cons (S := S1x128) _ zeros2, readCov_cons (S := S1x128) _ zeros2, View.readAt_eq_ld, ld2])

/-- Window `w`'s block, at point `t`, of the contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2_0 (c : Dev nD) (t : Fin cfg2.N) : Vec F S5000x128 .f32 := iblk2 V c 0 t
abbrev xb2_1 (c : Dev nD) (t : Fin cfg2.N) : Vec F S5000x128 .f32 := iblk2 V c 1 t
abbrev xb2_2 (c : Dev nD) (t : Fin cfg2.N) : Vec F S128x128 .f32 := iblk2 V c 2 t
abbrev xb2_3 (c : Dev nD) (t : Fin cfg2.N) : Vec F S1x128 .f32 := iblk2 V c 3 t

/-- The running column sums after point `n`. -/
def sumAt2 (c : Dev nD) : (n : ℕ) → n < cfg2.N → Vec F S1x128 .f32
  | 0, h => k2_pay4 (xb2_0 V c ⟨0, h⟩) (xb2_1 V c ⟨0, h⟩) (xb2_2 V c ⟨0, h⟩) (xb2_3 V c ⟨0, h⟩) (k2_pay1 (F := F))
  | n + 1, h => k2_pay4 (xb2_0 V c ⟨n + 1, h⟩) (xb2_1 V c ⟨n + 1, h⟩) (xb2_2 V c ⟨n + 1, h⟩) (xb2_3 V c ⟨n + 1, h⟩) (sumAt2 c n (Nat.lt_of_succ_lt h))

/-- The running column sums of squares after point `n`. -/
def sqAt2 (c : Dev nD) : (n : ℕ) → n < cfg2.N → Vec F S1x128 .f32
  | 0, h => k2_pay5 (xb2_0 V c ⟨0, h⟩) (xb2_1 V c ⟨0, h⟩) (xb2_2 V c ⟨0, h⟩) (xb2_3 V c ⟨0, h⟩) (k2_pay2 (F := F))
  | n + 1, h => k2_pay5 (xb2_0 V c ⟨n + 1, h⟩) (xb2_1 V c ⟨n + 1, h⟩) (xb2_2 V c ⟨n + 1, h⟩) (xb2_3 V c ⟨n + 1, h⟩) (sqAt2 c n (Nat.lt_of_succ_lt h))

abbrev scM2_0 : Memref sig .tc .vmem S1x128 .f32 := Memref.whole cc2_scratch0
abbrev scM2_1 : Memref sig .tc .vmem S1x128 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

/-- What the region is entered with, the two accumulators split off, each owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 (F := F) c) ∗ (∃ r, prngReg c r)) := by
  unfold Pipeline.ΦA; rw [scopedRest2_split]; simp only [scM2_0, scM2_1, owns_whole]; try rfl

/-- The invariant before point `n`: the accumulators at the running sums the point before left (at anything before the first). -/
def PhiS2 (c : Dev nD) : (n : ℕ) → n ≤ cfg2.N → sProp 𝕄
  | 0, _ => Pipeline.ΦA spec2 c
  | n + 1, hn => iprop(iprop(iprop(owns (c : Thread nD τ) scM2_0 fullShare (sumAt2 V c n hn) ∗ owns (c : Thread nD τ) scM2_1 fullShare (sqAt2 V c n hn)) ∗ rest2 (F := F) c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => sumAt2 V c t.val t.isLt
    | ⟨5, _⟩ => sqAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = sumAt2 V c t.val t.isLt := by dsimp only [dat2]
theorem after2_5 (c : Dev nD) (t : Fin cfg2.N) : (dat2 V c).after 5 t = sqAt2 V c t.val t.isLt := by dsimp only [dat2]

/-- Each input window holds its block of `V` at every point: the body leaves it as found. -/
theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ ∀ d, (dat2 V c).before 3 t d = iblk2 V c 3 t := by
  refine ⟨?_, ?_, ?_, ?_⟩ <;>
    exact fun d => (Dat.before_in_eq_fetched _ _ rfl (fun _ => rfl) (fun _ _ _ => rfl) (fun _ => rfl) t d).trans rfl

theorem body_obligation2 (c : Dev nD) : BodyObligation (dat2 (F := F) V c) (defs₀ (F := F)) Variants.none () Set.univ := fun t => by
  rewrite [bigSep_W2, bigSep_W2, show (dat2 V c).owesAt () t.succ = (dat2 V c).owesAt () t.castSucc from rfl]
  obtain ⟨b0, b1, b2, b3⟩ := before2 V c t
  simp only [b0, b1, b2, b3]
  obtain ⟨_ | n, hn⟩ := t <;> simp only [dat2, Fin.coe_castSucc, Fin.val_succ, PhiS2, sumAt2, sqAt2]
  · rewrite [PhiA2_eq]
    iintro ⟨⟨⟨⟨⟨%s0, HS0⟩, %s1, HS1⟩, Hr⟩, Hg⟩, Ho, ⟨%d0, H0⟩, ⟨%d1, H1⟩, ⟨%d2, H2⟩, ⟨%d3, H3⟩, ⟨%d4, H4⟩, ⟨%d5, H5⟩⟩
    iapply sound_kernel2 (.inl ⟨(hcond2_0 ⟨0, hn⟩).mpr rfl, rfl, rfl⟩)
    iframe
    iintro ⟨H0, H1, H2, H3, H4, H5, HS0, HS1⟩
    iframe
  · iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
    iapply sound_kernel2 (.inr ⟨fun h => by have : (n + 1) % 10 = 0 := (hcond2_0 ⟨n + 1, hn⟩).mp h; have := hn.trans_eq (N_2 : cfg2.N = 10); omega, rfl, rfl⟩)
    iframe
    iintro ⟨H0, H1, H2, H3, H4, H5, HS0, HS1⟩
    iframe

theorem hin2 (c : Dev nD) : Pipeline.ΦA spec2 c ⊢ (dat2 V c).Φ 0 := .rfl

/-- After the last point the invariant gives back what the region was entered with: the accumulators' contents are forgotten. -/
theorem hout2 (c : Dev nD) : (dat2 V c).Φ (Fin.last cfg2.N) ⊢ Pipeline.ΦA spec2 c := by
  rewrite [PhiA2_eq]
  exact sep_mono (sep_mono (sep_mono (exists_intro _) (exists_intro _)) .rfl) .rfl

end Cert.KernelIdeal.Hand

end
-- ==== Proof.KIdeal.Region3.lean ====
import proofs.«416878_j12463995093413_1_alg».proof.Proof.Gen.KernelIdeal.Launch
import proofs.«416878_j12463995093413_1_alg».proof.Proof.Gen.KernelIdeal.Skeleton
import proofs.«416878_j12463995093413_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Pipeline.TableIdle
import Idealize.ShloMosaic.Lib.Ring
import Idealize.ShloMosaic.Lib.Tactic
import proofs.«416878_j12463995093413_1_alg».proof.Proof.LibWholeStore

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeStore

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's test for the first block. -/
abbrev cond_r3 (i : grid3.Coords) : Prop :=
  (Scalar.cmpi .ne (Scalar.extui (Scalar.cmpi .eq (BitVec.ofNat 32 (i 0).val) 0#32)) 0#32) = 1#1

theorem hcond_r3 : ∀ t : Fin cfg3.N, cond_r3 (grid3.coords t) ↔ t.val = 0 :=
  (by decide +kernel : ∀ t : Fin grid3.N, cond_r3 (grid3.coords t) ↔ t.val = 0)

/-- The block whose column sums are taken, as a function of the eight operand blocks it is computed from. -/
def xblk_r3 (x0 x1 : Vec F S5000x128 .f32) (x2 : Vec F S128x128 .f32) (x3 x4 x5 x6 x7 : Vec F S1x128 .f32) : FVec F S5000x128 .f32 :=
  k3_pay6 x0 x1 x2 x3 x5 x4 x6 x7

/-- One step: the operands are left as they are, and both pairs of sums become the block's column sums and column sums of squares added to `s'`, `q'` — zero at the first block, the previous sums `s`, `q` afterwards. -/
theorem sound_kernel3 (c : Dev nD) {E : Set ℕ} {i : grid3.Coords} {arg1 arg2 : Memref sig .tc .vmem S5000x128 .f32} {arg3 arg9 : Memref sig .tc .vmem S128x128 .f32} {arg4 arg5 arg6 arg7 arg8 arg10 arg11 arg12 arg13 arg14 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole}
    {x0 x1 : Vec F S5000x128 .f32} {x2 : Vec F S128x128 .f32} {x3 x4 x5 x6 x7 : Vec F S1x128 .f32} {x8 : Vec F S128x128 .f32} {x9 d0 d1 s q s' q' : Vec F S1x128 .f32}
    (h : cond_r3 i ∧ s' = k3_pay4 ∧ q' = k3_pay5 ∨ ¬cond_r3 i ∧ s' = s ∧ q' = q) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare x6 ∗ owns c.tc arg8 fullShare x7 ∗ owns c.tc arg9 fullShare x8
        ∗ owns c.tc arg10 fullShare x9 ∗ owns c.tc arg11 fullShare d0 ∗ owns c.tc arg12 fullShare d1
        ∗ owns c.tc arg13 fullShare s ∗ owns c.tc arg14 fullShare q
        ∗ (iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare x6 ∗ owns c.tc arg8 fullShare x7 ∗ owns c.tc arg9 fullShare x8
        ∗ owns c.tc arg10 fullShare x9
            ∗ owns c.tc arg11 fullShare (k3_pay2 (xblk_r3 x0 x1 x2 x3 x4 x5 x6 x7) x8 x9 s')
            ∗ owns c.tc arg12 fullShare (k3_pay3 (xblk_r3 x0 x1 x2 x3 x4 x5 x6 x7) x8 x9 q')
            ∗ owns c.tc arg13 fullShare (k3_pay2 (xblk_r3 x0 x1 x2 x3 x4 x5 x6 x7) x8 x9 s')
            ∗ owns c.tc arg14 fullShare (k3_pay3 (xblk_r3 x0 x1 x2 x3 x4 x5 x6 x7) x8 x9 q')) -∗ K ⟨⟩))
      ⊢ wp frame (wpE (defs₀ (F := F)) Variants.none c none) E (cc3__gin_stats2_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc3__gin_stats2_kernel_eq_skeleton]; unfold cc3__gin_stats2_kernel_skel
  simp only [k3_part1_eq_skeleton]; unfold k3_part1_skel
  simp only [owns_eq_rep]
  iintro ⟨H0, H1, H2, H3, H4, H5, H6, H7, H8, H9, H10, H11, H12, H13, Hk⟩
  obtain ⟨hc, rfl, rfl⟩ | ⟨hc, rfl, rfl⟩ := h <;>
  · sl_exec (disch := exact hc)
    sl_step
    iapply Hk
    iframe
    simp only [← owns_eq_rep]
    unfold owns
    isplitl [H10]
    on_goal 2 => isplitl [H11]
    on_goal 3 => isplitl [H12]
    all_goals
      iexists _; isplitr; swap; iassumption
      ipureintro
      sl_unfold_words
      refine (read_writes_cons _ zeros2 _ _ _ _).trans ?_
      simp only [readCov_cons (S := S1x128) _ zeros2, View.readAt_eq_ld, ld2, xblk_r3, View.read_rep]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def xb_r3 (c : Dev nD) (t : Fin cfg3.N) : FVec F S5000x128 .f32 :=
  xblk_r3 (iblk3 V c 0 t) (iblk3 V c 1 t) (iblk3 V c 2 t) (iblk3 V c 3 t) (iblk3 V c 4 t) (iblk3 V c 5 t) (iblk3 V c 6 t) (iblk3 V c 7 t)

/-- The running column sums and column sums of squares after block `n`, by recursion on `n`. -/
def acc_r3 (c : Dev nD) : (n : ℕ) → n < cfg3.N → Vec F S1x128 .f32 × Vec F S1x128 .f32
  | 0, hn => (k3_pay2 (xb_r3 V c ⟨0, hn⟩) (iblk3 V c 8 ⟨0, hn⟩) (iblk3 V c 9 ⟨0, hn⟩) k3_pay4,
      k3_pay3 (xb_r3 V c ⟨0, hn⟩) (iblk3 V c 8 ⟨0, hn⟩) (iblk3 V c 9 ⟨0, hn⟩) k3_pay5)
  | n + 1, hn => (k3_pay2 (xb_r3 V c ⟨n + 1, hn⟩) (iblk3 V c 8 ⟨n + 1, hn⟩) (iblk3 V c 9 ⟨n + 1, hn⟩) (acc_r3 c n (Nat.lt_of_succ_lt hn)).1,
      k3_pay3 (xb_r3 V c ⟨n + 1, hn⟩) (iblk3 V c 8 ⟨n + 1, hn⟩) (iblk3 V c 9 ⟨n + 1, hn⟩) (acc_r3 c n (Nat.lt_of_succ_lt hn)).2)

abbrev scM_r3_0 : Memref sig .tc .vmem S1x128 .f32 := Memref.whole cc3_scratch0
abbrev scM_r3_1 : Memref sig .tc .vmem S1x128 .f32 := Memref.whole cc3_scratch1

theorem PhiA3_eq (c : Dev nD) :
    (Pipeline.ΦA spec3 c : sProp 𝕄)
      = iprop(iprop(iprop((∃ d, owns c.tc scM_r3_0 fullShare d) ∗ (∃ d, owns c.tc scM_r3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM_r3_0, scM_r3_1, owns_whole]; rfl

/-- Before block `n` the two accumulators hold the sums over the blocks before it; before the first, anything. -/
def PhiS3 (c : Dev nD) : (n : ℕ) → n ≤ cfg3.N → sProp 𝕄
  | 0, _ => Pipeline.ΦA spec3 c
  | n + 1, hn => iprop(iprop(iprop(owns (c : Thread nD τ) scM_r3_0 fullShare ((acc_r3 V c n hn).1) ∗ owns (c : Thread nD τ) scM_r3_1 fullShare ((acc_r3 V c n hn).2))
      ∗ Pipeline.scopedRestBut (Ix := Unit) (Name := ℕ) (U := UR sig nD τ) (Lvl := ℕ) (Val := Elt F) spec3 c [cc3_scratch0, cc3_scratch1])
      ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => (acc_r3 V c t.val t.isLt).1
    | ⟨11, _⟩ => (acc_r3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_10 (c : Dev nD) (t : Fin cfg3.N) : (dat3 V c).after 10 t = (acc_r3 V c t.val t.isLt).1 := by dsimp only [dat3]
theorem after3_11 (c : Dev nD) (t : Fin cfg3.N) : (dat3 V c).after 11 t = (acc_r3 V c t.val t.isLt).2 := by dsimp only [dat3]

/-- A step leaves every operand block as it finds it, so what an operand holds before a step is what it holds after. -/
theorem before3 (c : Dev nD) (t : Fin cfg3.N) : ∀ w : Fin 12, w.val < 10 → ∀ d, (dat3 V c).before w t d = (dat3 V c).after w t := by
  intro w hw
  fin_cases w <;> first
    | exact absurd hw (by decide)
    | exact fun d => ((dat3 V c).before_in_eq_fetched _ rfl (fun _ => rfl) (fun _ _ _ => rfl) (fun _ => rfl) t d).trans rfl

/-- A step at block `t` takes the invariant before `t` to the invariant before `t + 1`. -/
theorem body_obligation3 (c : Dev nD) : BodyObligation (dat3 (F := F) V c) (defs₀ (F := F)) Variants.none () Set.univ := fun t => by
  rw [bigSep_W3, bigSep_W3]
  simp (disch := decide) only [before3 V c t]
  rw [after3_10, after3_11, show (dat3 V c).owesAt () t.succ = (dat3 V c).owesAt () t.castSucc from rfl,
    show (dat3 V c).Φ t.succ = PhiS3 V c (t.val + 1) t.isLt from rfl,
    show (dat3 V c).Φ t.castSucc = PhiS3 V c t.val (Nat.le_of_lt t.isLt) from rfl]
  show _ ⊢ wp _ _ _ (bodyAt3 t) _
  dsimp only [dat3]
  obtain ⟨_ | n, hn⟩ := t <;> simp only [PhiS3, acc_r3, xb_r3, PhiA3_eq]
  all_goals
    iintro ⟨⟨⟨⟨HS0, HS1⟩, HR⟩, Hg⟩, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩⟩
    first
    | (icases HS0 with ⟨%_, HS0⟩; icases HS1 with ⟨%_, HS1⟩; iapply sound_kernel3 c (.inl ⟨(hcond_r3 _).mpr rfl, rfl, rfl⟩))
    | iapply sound_kernel3 c (.inr ⟨fun h => Nat.succ_ne_zero _ ((hcond_r3 _).mp h), rfl, rfl⟩)
    iframe
    iintro ⟨H0, H1, H2, H3, H4, H5, H6, H7, H8, H9, H10, H11, HS0, HS1⟩
    iframe

theorem hin3 (c : Dev nD) : Pipeline.ΦA spec3 c ⊢ (dat3 V c).Φ 0 := .rfl

/-- After the last block the accumulators' contents are forgotten. -/
theorem hout3 (c : Dev nD) : (dat3 V c).Φ (Fin.last cfg3.N) ⊢ Pipeline.ΦA spec3 c := by
  rw [show (dat3 V c).Φ (Fin.last cfg3.N) = PhiS3 V c (9 + 1) (by decide) from rfl, PhiS3, PhiA3_eq]
  exact sep_mono_left (sep_mono_left (sep_mono (exists_intro _) (exists_intro _)))

end Cert.KernelIdeal.Hand

end
-- ==== Proof.KIdeal.Region4.lean ====
import proofs.«416878_j12463995093413_1_alg».proof.Proof.Gen.KernelIdeal.Launch
import proofs.«416878_j12463995093413_1_alg».proof.Proof.Gen.KernelIdeal.Skeleton
import proofs.«416878_j12463995093413_1_alg».proof.Proof.Gen.KernelIdeal.Points
import proofs.«416878_j12463995093413_1_alg».proof.Proof.LibWholeStore
import Idealize.ShloMosaic.Lib.Pipeline.TableIdle
import Idealize.ShloMosaic.Lib.Ring

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_14 (x0 x1 : Vec F S5000x128 .f32) (x2 : Vec F S128x128 .f32) (x3 x4 x5 x6 x7 : Vec F S1x128 .f32) (x8 : Vec F S128x128 .f32) (x9 x10 x11 x12 x13 : Vec F S1x128 .f32) : Vec F S5000x128 .f32 :=
  k4_pay1 (k4_pay2 x0 x1 x2 x3 x5 x4 x6 x7) (k4_pay3 x8) (constant S5000x128 .f32 0x00000000#32) x9 x11 x10 x12 x13

section
variable (c : Dev nD) (a1 a2 a15 : Memref sig .tc .vmem S5000x128 .f32) (a3 a9 : Memref sig .tc .vmem S128x128 .f32)
  (a4 a5 a6 a7 a8 a10 a11 a12 a13 a14 : Memref sig .tc .vmem S1x128 .f32)
  (x0 x1 d : Vec F S5000x128 .f32) (x2 x8 : Vec F S128x128 .f32) (x3 x4 x5 x6 x7 x9 x10 x11 x12 x13 : Vec F S1x128 .f32)

/-- The fourteen inputs, each owned whole at its contents. -/
def ins4 : sProp 𝕄 :=
  iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a10 fullShare x9 ∗ owns c a11 fullShare x10 ∗ owns c a12 fullShare x11 ∗ owns c a13 fullShare x12 ∗ owns c a14 fullShare x13)

/-- The body reads every input whole and stores `out4_14` of them over the whole output. -/
theorem sound_kernel4 {E : Set ℕ} {i : grid4.Coords} {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {h13 : a13.IsWhole} {h14 : a14.IsWhole} {h15 : a15.IsWhole} {K : PUnit → sProp 𝕄} :
    iprop(ins4 c a1 a2 a3 a9 a4 a5 a6 a7 a8 a10 a11 a12 a13 a14 x0 x1 x2 x8 x3 x4 x5 x6 x7 x9 x10 x11 x12 x13 ∗ owns c a15 fullShare d
        ∗ (iprop(ins4 c a1 a2 a3 a9 a4 a5 a6 a7 a8 a10 a11 a12 a13 a14 x0 x1 x2 x8 x3 x4 x5 x6 x7 x9 x10 x11 x12 x13 ∗ owns c a15 fullShare (out4_14 x0 x1 x2 x3 x4 x5 x6 x7 x8 x9 x10 x11 x12 x13)) -∗ K ⟨⟩))
      ⊢ wp frame (wpE (defs₀ (F := F)) Variants.none c none) E (cc4__gin_final_kernel i a1 h1 a2 h2 a3 h3 a4 h4 a5 h5 a6 h6 a7 h7 a8 h8 a9 h9 a10 h10 a11 h11 a12 h12 a13 h13 a14 h14 a15 h15) K := by
  simp only [cc4__gin_final_kernel_eq_skeleton]; unfold cc4__gin_final_kernel_skel
  simp only [k4_part1_eq_skeleton, ins4, owns_eq_rep]; unfold k4_part1_skel
  iintro ⟨⟨H0, H1, H2, H3, H4, H5, H6, H7, H8, H9, H10, H11, H12, H13⟩, H14, Hk⟩
  sl_exec
  sl_step
  iapply Hk
  iframe H0 H1 H2 H3 H4 H5 H6 H7 H8 H9 H10 H11 H12 H13
  istop
  rw [pointsTo_rep (c : Thread nD τ) a15 (a15.view.writes _ _ _), read_writes_cons _ zeros2]
  sl_unfold_words
  simp only [View.readAt_eq_ld, View.read_rep, ld2]
  exact .rfl

end

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_14 (c : Dev nD) (t : Fin cfg4.N) : (dat4 V c).after 14 t = out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) := by dsimp only [dat4]

/-- The body leaves every input block as it found it. -/
theorem before4 (c : Dev nD) (w : Fin cfg4.W) (hw : (cfg4.win w).isOut = false) (t : Fin cfg4.N) (d) :
    (dat4 V c).before w t d = (dat4 V c).after w t := by
  refine ((dat4 V c).before_in_eq_fetched w hw (fun _ => rfl) ?_ ?_ t d).trans ?_ <;> fin_cases w <;>
    first | (intros; rfl) | exact absurd hw (by decide)

theorem body_obligation4 (c : Dev nD) : BodyObligation (dat4 (F := F) V c) (defs₀ (F := F)) Variants.none () Set.univ := fun t => by
  rewrite [bigSep_W4, bigSep_W4, show (dat4 V c).Φ t.succ = (dat4 V c).Φ t.castSucc from rfl,
    show (dat4 V c).owesAt () t.succ = (dat4 V c).owesAt () t.castSucc from rfl]
  simp (disch := exact rfl) only [before4 V c]
  change _ ⊢ wp _ _ _ (bodyAt4 t) _
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%d, H14⟩⟩
  iapply (sound_kernel4 c _ _ _ _ _ _ _ _ _ _ _ _ _ _ _ ((dat4 V c).after 0 t) ((dat4 V c).after 1 t) ((dat4 V c).before 14 t d) ((dat4 V c).after 2 t) ((dat4 V c).after 8 t) ((dat4 V c).after 3 t) ((dat4 V c).after 4 t) ((dat4 V c).after 5 t) ((dat4 V c).after 6 t) ((dat4 V c).after 7 t) ((dat4 V c).after 9 t) ((dat4 V c).after 10 t) ((dat4 V c).after 11 t) ((dat4 V c).after 12 t) ((dat4 V c).after 13 t))
  unfold ins4
  iframe H0 H1 H2 H3 H4 H5 H6 H7 H8 H9 H10 H11 H12 H13 H14
  iintro ⟨⟨H0, H1, H2, H3, H4, H5, H6, H7, H8, H9, H10, H11, H12, H13⟩, H14⟩
  iframe HΦ Ho H0 H1 H2 H3 H4 H5 H6 H7 H8 H9 H10 H11 H12 H13
  iexact H14

theorem hin4 (c : Dev nD) : Pipeline.ΦA spec4 c ⊢ (dat4 V c).Φ 0 := .rfl

theorem hout4 (c : Dev nD) : (dat4 V c).Φ (Fin.last cfg4.N) ⊢ Pipeline.ΦA spec4 c := .rfl

end Cert.KernelIdeal.Hand

end
-- ==== Proof.KIdeal.Segs.lean ====
import proofs.«416878_j12463995093413_1_alg».proof.Proof.Gen.KernelIdeal.Regions
import proofs.«416878_j12463995093413_1_alg».proof.Proof.KIdeal.Region0
import proofs.«416878_j12463995093413_1_alg».proof.Proof.KIdeal.Region1
import proofs.«416878_j12463995093413_1_alg».proof.Proof.KIdeal.Region2
import proofs.«416878_j12463995093413_1_alg».proof.Proof.KIdeal.Region3
import proofs.«416878_j12463995093413_1_alg».proof.Proof.KIdeal.Region4
import proofs.«416878_j12463995093413_1_alg».proof.Proof.KIdeal.RunCond
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
def W2 (c : Dev nD) : Valuation τ sig (Elt F) :=
  Pipeline.withArrays spec0 c (W1 m c) fun w => (dat0 (fun c b => W1 m c b) c).arrAt w cfg0.N
abbrev W3 (c : Dev nD) : Valuation τ sig (Elt F) := StableHlo.after hostOps1 (W2 m c)
def W4 (c : Dev nD) : Valuation τ sig (Elt F) :=
  Pipeline.withArrays spec1 c (W3 m c) fun w => (dat1 (fun c b => W3 m c b) c).arrAt w cfg1.N
abbrev W5 (c : Dev nD) : Valuation τ sig (Elt F) := StableHlo.after hostOps2 (W4 m c)
abbrev W6 (c : Dev nD) : Valuation τ sig (Elt F) := StableHlo.after hostOps2_1 (W5 m c)
abbrev W7 (c : Dev nD) : Valuation τ sig (Elt F) := StableHlo.after hostOps2_2 (W6 m c)
def W8 (c : Dev nD) : Valuation τ sig (Elt F) :=
  Pipeline.withArrays spec2 c (W7 m c) fun w => (dat2 (fun c b => W7 m c b) c).arrAt w cfg2.N
abbrev W9 (c : Dev nD) : Valuation τ sig (Elt F) := StableHlo.after hostOps3 (W8 m c)
def W10 (c : Dev nD) : Valuation τ sig (Elt F) :=
  Pipeline.withArrays spec3 c (W9 m c) fun w => (dat3 (fun c b => W9 m c b) c).arrAt w cfg3.N
abbrev W11 (c : Dev nD) : Valuation τ sig (Elt F) := StableHlo.after hostOps4 (W10 m c)
def W12 (c : Dev nD) : Valuation τ sig (Elt F) :=
  Pipeline.withArrays spec4 c (W11 m c) fun w => (dat4 (fun c b => W11 m c b) c).arrAt w cfg4.N

def outs : Outs (F := F) := fun J r c =>
  match J with
  | 2 => W2 m c r
  | 4 => W4 m c r
  | 8 => W8 m c r
  | 10 => W10 m c r
  | 12 => W12 m c r
  | _ => W1 m c r

def pdats : (p : Fin 5) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W7 m c b) c
  | ⟨3, _⟩ => fun c => dat3 (fun c b => W9 m c b) c
  | ⟨4, _⟩ => fun c => dat4 (fun c b => W11 m c b) c

abbrev 𝒱₀ : Variants := Variants.none
abbrev L : GSem nD τ sig → Finset Unit := fun _ => ∅
abbrev lv : GSem nD τ sig → Unit → ℕ := fun _ _ => 0

abbrev onRefs (W : Dev nD → Valuation τ sig (Elt F)) (c : Dev nD) (b : Ref sig .tc) : Buf (Elt F) ((c : Thread nD τ).loc b) := W c b

-- `V` with region `p`'s arrays replaced by their final contents.
abbrev exit (p : Fin 5) (V : Dev nD → Valuation τ sig (Elt F)) (c : Dev nD) : Valuation τ sig (Elt F) :=
  Pipeline.withArrays (cfgs p).spec c (V c) fun w => (pdats m p c).arrAt w (cfgs p).N

theorem free : ∀ (p : Fin 5) (c : Dev nD), (∀ t, (pdats m p c).owed t = 0) ∧ (∀ w, (pdats m p c).q w = fullShare) ∧ ∀ t, (pdats m p c).recorded t = Set.univ
  | ⟨0, _⟩, _ | ⟨1, _⟩, _ | ⟨2, _⟩, _ | ⟨3, _⟩, _ | ⟨4, _⟩, _ => ⟨fun _ => rfl, fun _ => rfl, fun _ => rfl⟩

-- What region `p`'s own module proves about it, read at entry contents `V`.
structure Facts (p : Fin 5) (V : Dev nD → Valuation τ sig (Elt F)) : Prop where
  l : Pipeline.LaunchFacts (nD := nD) (τ := τ) cfgs p
  hb : ∀ c, BodyObligation (pdats m p c) (defs₀ (F := F)) 𝒱₀ () Set.univ
  hA : ∀ c w, (pdats m p c).A w = V c (Pipeline.arrRef (cfgs p).spec w)
  hi : ∀ c, Pipeline.ΦA (cfgs p).spec c ⊢ (pdats m p c).Φ 0
  hl : ∀ c, (pdats m p c).Φ (Fin.last (cfgs p).N) ⊢ Pipeline.ΦA (cfgs p).spec c

theorem f0 : Facts m 0 (W1 m) := let V := onRefs (W1 m); ⟨launch0, body_obligation0 V, A_eq0 V, hin0 V, hout0 V⟩
theorem f1 : Facts m 1 (W3 m) := let V := onRefs (W3 m); ⟨launch1, body_obligation1 V, A_eq1 V, hin1 V, hout1 V⟩
theorem f2 : Facts m 2 (W7 m) := let V := onRefs (W7 m); ⟨launch2, body_obligation2 V, A_eq2 V, hin2 V, hout2 V⟩
theorem f3 : Facts m 3 (W9 m) := let V := onRefs (W9 m); ⟨launch3, body_obligation3 V, A_eq3 V, hin3 V, hout3 V⟩
theorem f4 : Facts m 4 (W11 m) := let V := onRefs (W11 m); ⟨launch4, body_obligation4 V, A_eq4 V, hin4 V, hout4 V⟩

-- An array that is no output ends at its entry contents, which `f.hA` reads off `V`; off the arrays `withArrays` is `V`.
variable {m} in
theorem other {p : Fin 5} {V : Dev nD → Valuation τ sig (Elt F)} (f : Facts m p V) (c : Dev nD) (x : DevRef τ sig)
    (hx : ∀ w, ((cfgs p).win w).isOut ≠ false → (Proc.devRef .tc (Pipeline.arrRef (cfgs p).spec w) : DevRef τ sig) ≠ x) :
    exit m p V c x = V c x := by
  by_cases h : ∃ w, Proc.devRef .tc (Pipeline.arrRef (cfgs p).spec w) = x
  · obtain ⟨w, rfl⟩ := h
    rw [exit, Pipeline.withArrays_arr _ f.l.win.arr_inj]
    by_cases hw : ((cfgs p).win w).isOut = false
    · exact ((pdats m p c).arrAt_in w hw _).trans (f.hA c w)
    · exact absurd rfl (hx w hw)
  · exact dif_neg h

theorem W2_other (c : Dev nD) (x : DevRef τ sig) (h0 : x ≠ main_v14_0) (h1 : x ≠ main_v14_1) : W2 m c x = W1 m c x :=
  other (f0 m) c x fun (w : Fin 5) hw => by
    obtain rfl | rfl : w = 3 ∨ w = 4 := by revert hw; revert w; decide
    exacts [h0.symm, h1.symm]

theorem W4_other (c : Dev nD) (x : DevRef τ sig) (h0 : x ≠ main_v21) : W4 m c x = W3 m c x :=
  other (f1 m) c x fun (w : Fin 10) hw => by
    obtain rfl : w = 9 := by revert hw; revert w; decide
    exact h0.symm

theorem W8_other (c : Dev nD) (x : DevRef τ sig) (h0 : x ≠ main_v30_0) (h1 : x ≠ main_v30_1) : W8 m c x = W7 m c x :=
  other (f2 m) c x fun (w : Fin 6) hw => by
    obtain rfl | rfl : w = 4 ∨ w = 5 := by revert hw; revert w; decide
    exacts [h0.symm, h1.symm]

theorem W10_other (c : Dev nD) (x : DevRef τ sig) (h0 : x ≠ main_v37_0) (h1 : x ≠ main_v37_1) : W10 m c x = W9 m c x :=
  other (f3 m) c x fun (w : Fin 12) hw => by
    obtain rfl | rfl : w = 10 ∨ w = 11 := by revert hw; revert w; decide
    exacts [h0.symm, h1.symm]

theorem W12_other (c : Dev nD) (x : DevRef τ sig) (h0 : x ≠ main_v44) : W12 m c x = W11 m c x :=
  other (f4 m) c x fun (w : Fin 15) hw => by
    obtain rfl : w = 14 := by revert hw; revert w; decide
    exact h0.symm

-- `Function.update_eq_iff`, the new value being the target's own.
theorem upd {α : Type _} [DecidableEq α] {β : α → Type _} {V V' W : ∀ a, β a} {a : α} (e : V' = V)
    (h : ∀ x, x ≠ a → W x = V x) : Function.update V' a (W a) = W :=
  e ▸ Function.update_eq_iff.2 ⟨rfl, fun x hx => (h x hx).symm⟩

theorem upd2 {α : Type _} [DecidableEq α] {β : α → Type _} {V V' W : ∀ a, β a} {a b : α} (e : V' = V)
    (h : ∀ x, x ≠ a → x ≠ b → W x = V x) : Function.update (Function.update V' a (W a)) b (W b) = W :=
  upd rfl fun x hb => by
    by_cases ha : x = a
    · subst ha; exact (Function.update_self ..).symm
    · rw [Function.update_of_ne ha, e]; exact h x ha hb

theorem V2_eq (c : Dev nD) : V2 m (outs m) c = W2 m c := upd2 rfl (W2_other m c)
theorem V3_eq (c : Dev nD) : V3 m (outs m) c = W3 m c := congrArg (StableHlo.after hostOps1) (V2_eq m c)
theorem V4_eq (c : Dev nD) : V4 m (outs m) c = W4 m c := upd (V3_eq m c) (W4_other m c)
theorem V7_eq (c : Dev nD) : V7 m (outs m) c = W7 m c :=
  congrArg (StableHlo.after hostOps2_2) (congrArg (StableHlo.after hostOps2_1) (congrArg (StableHlo.after hostOps2) (V4_eq m c)))
theorem V8_eq (c : Dev nD) : V8 m (outs m) c = W8 m c := upd2 (V7_eq m c) (W8_other m c)
theorem V9_eq (c : Dev nD) : V9 m (outs m) c = W9 m c := congrArg (StableHlo.after hostOps3) (V8_eq m c)
theorem V10_eq (c : Dev nD) : V10 m (outs m) c = W10 m c := upd2 (V9_eq m c) (W10_other m c)
theorem V11_eq (c : Dev nD) : V11 m (outs m) c = W11 m c := congrArg (StableHlo.after hostOps4) (V10_eq m c)
theorem V12_eq (c : Dev nD) : V12 m (outs m) c = W12 m c := upd (V11_eq m c) (W12_other m c)

abbrev R (c : Dev nD) : sProp 𝕄 := iprop((∃ r, prngReg c r) ∗ ∃ W, owes (c : Thread nD τ) (0 : CellTallies nD τ sig Unit) W)

-- One record serves every region: the regions differ only in their `Facts`.
set_option backward.isDefEq.respectTransparency.types false in
def reg {p : Fin 5} {V : Dev nD → Valuation τ sig (Elt F)} (f : Facts m p V) :
    Pipeline.RegionSeg (pcfgs (F := F)) adm (pdats m) () defs₀ 𝒱₀ L lv p where
  win := f.l.win.to₀
  block_pos := f.l.block_pos
  stage_whole := f.l.stage_whole
  K := PEmpty
  osem k := k.elim
  ho := Pipeline.OwnSemFacts.none _
  hbody c := (f.hb c).loose
  hwaits := Pipeline.hwaits_of_owed_zero _ _ _ _ L lv p fun c => (free m p c).1
  pre c := iprop(StableHlo.held (c : Thread nD τ) (Pipeline.ucRefs τ sig) (V c) ∗ R c)
  post c := iprop(StableHlo.held (c : Thread nD τ) (Pipeline.ucRefs τ sig) (exit m p V c) ∗ R c)
  X c := iprop(∃ r, prngReg c r)
  Y c := iprop(∃ r, prngReg c r)
  Z c := Pipeline.unscopedRest (cfgs p).spec c (fun b => V c b)
  hentry c := by
    rw [Pipeline.ownSems0_none]
    have hsplit := Pipeline.arrays_of_unscopedBufs (p := p) (pcfgs (F := F)) adm (pdats m) f.l.win f.l.arr_whole c
      ((pdats m p c).share_full (free m p c).2.1) (fun b => V c b) (f.hA c)
    rw [Pipeline.unscopedBufs_held] at hsplit
    iintro ⟨⟨Hub, Hp, HO⟩, -, -⟩
    ihave ⟨Ha, Hrest⟩ := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun x _ => Or.inl ((free m p c).2.2 0 ▸ Set.mem_univ x)
      rw [(free m p c).1 0]
      iexact HO
    isplitl [Hp]; · iexact Hp
    iexact Hrest
  hin c := (sep_mono .rfl sep_elim_right).trans (sep_comm.1.trans (f.hi c))
  hout c := by
    rw [Pipeline.ownSems0_none]
    exact (f.hl c).trans (sep_comm.1.trans (sep_mono_right BIClass.emp_sep.2))
  hexit c := by
    have hjoin := Pipeline.unscopedBufs_of_arrays (p := p) (pcfgs (F := F)) adm f.l.win f.l.arr_whole c (pdats m)
      ((pdats m p c).share_full (free m p c).2.1) (fun b => V c b) (fun b => exit m p V c b) ((pdats m p c).arrAt · (cfgs p).N)
      (fun w => (Pipeline.withArrays_arr (cfgs p).spec f.l.win.arr_inj c (V c) ((pdats m p c).arrAt · (cfgs p).N) w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [(free m p c).1 (Fin.last _)]
    iexact HO

abbrev u₀ : UR sig nD τ := initOf (Pipeline.cells cfgs cellOf_inj) (Pipeline.launchToks cfgs cellOf_inj)

theorem hu₀ : (ownU u₀ : sProp 𝕄) ⊢ |={Set.univ}=> iprop(BI.own (emb₁ u₀) ∗ bigSep Finset.univ fun _ : Dev nD => (BI.emp : sProp 𝕄)) := by
  iintro Hu; imodintro
  isplitl [Hu]
  · iapply (show (ownU u₀ : sProp 𝕄) ⊢ BI.own (emb₁ u₀) from .rfl)
    iexact Hu
  rw [BI.bigSep_emp_const]
  iempintro

variable (ρ : Dev nD → PrngReg)

theorem hE0 : iprop((bigSep Finset.univ fun c : Dev nD => iprop(unscopedSems0 c ∗ owes (c : Thread nD τ) (0 : CellTallies nD τ sig Unit) ∅ ∗ Pipeline.launchCred 0 c ∗ prngReg c (ρ c) ∗ BI.emp)) ∗ levAts L lv)
    ⊢ (|={Set.univ}=> bigSep Finset.univ R : sProp 𝕄) :=
  Pipeline.initEach L lv fun c => by
    iintro ⟨⟨-, HO, -, Hp, -⟩, -⟩
    imodintro
    isplitl [Hp]; · iexists _; iexact Hp
    iexists ∅; iexact HO

abbrev same (s : (ℓ : Loc nD τ sig) → Buf (Elt F) ℓ) (c : Dev nD) (x : Ref sig .tc) : Prop :=
  s ((c.tc : Thread nD τ).loc x) = m ((c.tc : Thread nD τ).loc x)

-- Every argument array holds in `s` what it holds in `m`.
abbrev kept (s : (ℓ : Loc nD τ sig) → Buf (Elt F) ℓ) (c : Dev nD) : Prop :=
  same m s c main_arg0 ∧ same m s c main_arg1 ∧ same m s c main_arg2 ∧ same m s c main_arg3 ∧ same m s c main_arg4 ∧ same m s c main_arg5 ∧ same m s c main_arg6 ∧ same m s c main_arg7 ∧ same m s c main_arg8 ∧ same m s c main_arg9 ∧ same m s c main_arg10 ∧ same m s c main_arg11 ∧ same m s c main_arg12 ∧ same m s c main_arg13 ∧ same m s c main_arg14 ∧ same m s c main_arg15 ∧ same m s c main_arg16

set_option backward.isDefEq.respectTransparency.types false in
theorem frame : θ_run defs (onTc (τ := τ) (main (F := F))) ⟨m, fun _ => 0, ρ⟩ (fun r => ∀ c : Dev nD, kept m r.2.mem c) :=
  frame_cond m emb₁ () 𝒱₀ L lv (fun _ _ => rfl) ρ (outs m) (pdats m) 0 _ _ hu₀ (fun _ => R) (hE0 ρ) (fun _ => sep_elim_right)
    (reg m (f0 m)) (fun _ => .rfl) (fun c => V2_eq m c ▸ .rfl)
    (reg m (f1 m)) (fun c => V3_eq m c ▸ .rfl) (fun c => V4_eq m c ▸ .rfl)
    (reg m (f2 m)) (fun c => V7_eq m c ▸ .rfl) (fun c => V8_eq m c ▸ .rfl)
    (reg m (f3 m)) (fun c => V9_eq m c ▸ .rfl) (fun c => V10_eq m c ▸ .rfl)
    (reg m (f4 m)) (fun c => V11_eq m c ▸ .rfl) (fun c => V12_eq m c ▸ .rfl)

set_option backward.isDefEq.respectTransparency.types false in
theorem kernel_run : θ_run defs (onTc (τ := τ) (main (F := F))) ⟨m, fun _ => 0, ρ⟩ (fun r => ∀ c : Dev nD,
      r.2.mem ((c.tc : Thread nD τ).loc main_v44) = W12 m c main_v44 ∧ kept m r.2.mem c) :=
  (θ_run _ _ _).mono (fun r h c => ⟨(h c).1.trans (congrFun (V12_eq m c) _), (h c).2⟩)
  (run_cond m emb₁ () 𝒱₀ L lv (fun _ _ => rfl) ρ (outs m) (pdats m) 0 _ _ hu₀ (fun _ => R) (hE0 ρ) (fun _ => sep_elim_right)
    (reg m (f0 m)) (fun _ => .rfl) (fun c => V2_eq m c ▸ .rfl)
    (reg m (f1 m)) (fun c => V3_eq m c ▸ .rfl) (fun c => V4_eq m c ▸ .rfl)
    (reg m (f2 m)) (fun c => V7_eq m c ▸ .rfl) (fun c => V8_eq m c ▸ .rfl)
    (reg m (f3 m)) (fun c => V9_eq m c ▸ .rfl) (fun c => V10_eq m c ▸ .rfl)
    (reg m (f4 m)) (fun c => V11_eq m c ▸ .rfl) (fun c => V12_eq m c ▸ .rfl))

end Cert.KernelIdeal.Hand

end
-- ==== Proof.Spec.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.Lib.ValueIdx

noncomputable section

namespace Cert.Gin

open Idealize.ShloMosaic Idealize.ShloMosaic.ValueIdx
open scoped BigOperators

abbrev Mat (a b : ℕ) := Fin a → Fin b → EReal
abbrev Row (b : ℕ) := Fin b → EReal

abbrev NE : ℕ := 600000
abbrev NN : ℕ := 50000
abbrev DD : ℕ := 128
abbrev KK : ℕ := 16

def cE : EReal := Ideal.ofBits .f32 0x49127C00#32
def cN : EReal := Ideal.ofBits .f32 0x47435000#32
def eps : EReal := Ideal.ofBits .f32 0x3727C5AC#32

def lin {n k d : ℕ} (x : Mat n k) (w : Mat k d) (b : Row d) : Mat n d :=
  fun i j => (∑ t : Fin k, x i t * w t j) + b j

def csum {n d : ℕ} (x : Mat n d) : Row d := fun j => ∑ i : Fin n, x i j
def csumsq {n d : ℕ} (x : Mat n d) : Row d := fun j => ∑ i : Fin n, x i j * x i j

def mean {n d : ℕ} (cnt : EReal) (x : Mat n d) : Row d := fun j => Ideal.div (csum x j) cnt

/-- The variance as the mean of squares minus the squared mean. -/
def varK {n d : ℕ} (cnt : EReal) (x : Mat n d) : Row d :=
  fun j => Ideal.div (csumsq x j) cnt - mean cnt x j * mean cnt x j

/-- The variance as the mean of squared deviations from the mean. -/
def varR {n d : ℕ} (cnt : EReal) (x : Mat n d) : Row d :=
  fun j => Ideal.div (∑ i : Fin n, (x i j - mean cnt x j) * (x i j - mean cnt x j)) cnt

/-- Batch normalisation with scale and shift, then the rectifier. -/
def bnrelu {n d : ℕ} (x : Mat n d) (mu var g bb : Row d) : Mat n d :=
  fun i j => max ((x i j - mu j) * Ideal.rsqrt (var j + eps) * g j + bb j) 0

/-- Row `r` of the scatter-add: the sum of the rows `u e` over the edges `e` whose destination is `r`. -/
def scat {m n d : ℕ} (dst : Fin m → ℤ) (u : Mat m d) : Mat n d :=
  fun r j => ∑ e ∈ Finset.univ.filter (fun e : Fin m => dst e = (r.val : ℤ)), u e j

structure Inp where
  h : Mat NN DD
  src : Fin NE → Fin NN
  dst : Fin NE → ℤ
  ea : Mat NE KK
  w1 : Mat KK DD
  b1 : Row DD
  g1 : Row DD
  bb1 : Row DD
  w2 : Mat DD DD
  b2 : Row DD
  mw1 : Mat DD DD
  mb1 : Row DD
  mg1 : Row DD
  mbb1 : Row DD
  mw2 : Mat DD DD
  mb2 : Row DD
  mg2 : Row DD
  mbb2 : Row DD

def x1 (I : Inp) : Mat NE DD := lin I.ea I.w1 I.b1

def emb (I : Inp) (v : Row DD) : Mat NE DD :=
  lin (bnrelu (x1 I) (mean cE (x1 I)) v I.g1 I.bb1) I.w2 I.b2

def hnew (I : Inp) (v : Row DD) : Mat NN DD := fun r j => I.h r j + scat I.dst (emb I v) r j

def zin (I : Inp) (v : Row DD) : Mat NN DD :=
  fun r j => hnew I v r j + scat I.dst (fun e j => hnew I v (I.src e) j) r j

def y1 (I : Inp) (v : Row DD) : Mat NN DD := lin (zin I v) I.mw1 I.mb1
def r1 (I : Inp) (v v1 : Row DD) : Mat NN DD := bnrelu (y1 I v) (mean cN (y1 I v)) v1 I.mg1 I.mbb1
def y2 (I : Inp) (v v1 : Row DD) : Mat NN DD := lin (r1 I v v1) I.mw2 I.mb2
def fin (I : Inp) (v v1 v2 : Row DD) : Mat NN DD := bnrelu (y2 I v v1) (mean cN (y2 I v v1)) v2 I.mg2 I.mbb2

/-- The layer with every variance taken by `varK`, and below with every variance taken by `varR`. -/
def outK (I : Inp) : Mat NN DD :=
  fin I (varK cE (x1 I)) (varK cN (y1 I (varK cE (x1 I))))
    (varK cN (y2 I (varK cE (x1 I)) (varK cN (y1 I (varK cE (x1 I))))))

def outR (I : Inp) : Mat NN DD :=
  fin I (varR cE (x1 I)) (varR cN (y1 I (varR cE (x1 I))))
    (varR cN (y2 I (varR cE (x1 I)) (varR cN (y1 I (varR cE (x1 I))))))

def IsR (x : EReal) : Prop := ∃ r : ℝ, x = (r : EReal)

structure Inp.Real (I : Inp) : Prop where
  h : ∀ r j, IsR (I.h r j)
  ea : ∀ e k, IsR (I.ea e k)
  w1 : ∀ k j, IsR (I.w1 k j)
  b1 : ∀ j, IsR (I.b1 j)
  g1 : ∀ j, IsR (I.g1 j)
  bb1 : ∀ j, IsR (I.bb1 j)
  w2 : ∀ k j, IsR (I.w2 k j)
  b2 : ∀ j, IsR (I.b2 j)
  mw1 : ∀ k j, IsR (I.mw1 k j)
  mb1 : ∀ j, IsR (I.mb1 j)
  mg1 : ∀ j, IsR (I.mg1 j)
  mbb1 : ∀ j, IsR (I.mbb1 j)
  mw2 : ∀ k j, IsR (I.mw2 k j)
  mb2 : ∀ j, IsR (I.mb2 j)
  mg2 : ∀ j, IsR (I.mg2 j)
  mbb2 : ∀ j, IsR (I.mbb2 j)

def wrapWord (s : BitVec 32) : BitVec 32 := if s.toInt < 0 then s + 50000#32 else s
/-- A source word as a row of the node table: negative words wrap by the table's height, then clamp. -/
def srcIdx (s : BitVec 32) : Fin NN := ⟨min (wrapWord s).toInt.toNat 49999, Nat.lt_succ_of_le (Nat.min_le_right _ _)⟩

def mat {a b : ℕ} (v : (⟨2, ![a, b]⟩ : Shape).Idx → EReal) : Mat a b := fun i j => v (ix2 i j)
def row {b : ℕ} (v : (⟨2, ![1, b]⟩ : Shape).Idx → EReal) : Row b := fun j => v (ix2 (0 : Fin 1) j)
def vec {b : ℕ} (v : (⟨1, ![b]⟩ : Shape).Idx → EReal) : Row b := fun j => v (ix1 j)

def unmat {a b : ℕ} (M : Mat a b) : (⟨2, ![a, b]⟩ : Shape).Idx → EReal := fun i => M (i 0) (i 1)

theorem unmat_ix2 {a b : ℕ} (M : Mat a b) (i : Fin a) (j : Fin b) : unmat M (ix2 i j) = M i j := rfl

theorem eq_unmat {a b : ℕ} (f : (⟨2, ![a, b]⟩ : Shape).Idx → EReal) (M : Mat a b)
    (h : ∀ i j, f (ix2 i j) = M i j) : f = unmat M := by
  funext x
  rw [eq_ix2 x]
  exact h _ _

def mkInp (a0 : (⟨2, ![50000, 128]⟩ : Shape).Idx → EReal) (a1 : (⟨2, ![2, 600000]⟩ : Shape).Idx → BitVec 32)
    (a2 : (⟨2, ![600000, 16]⟩ : Shape).Idx → EReal) (a3 : (⟨2, ![16, 128]⟩ : Shape).Idx → EReal)
    (a4 a5 a6 : (⟨1, ![128]⟩ : Shape).Idx → EReal) (a7 : (⟨2, ![128, 128]⟩ : Shape).Idx → EReal)
    (a8 : (⟨1, ![128]⟩ : Shape).Idx → EReal) (a9 : (⟨2, ![128, 128]⟩ : Shape).Idx → EReal)
    (a10 a11 a12 : (⟨1, ![128]⟩ : Shape).Idx → EReal) (a13 : (⟨2, ![128, 128]⟩ : Shape).Idx → EReal)
    (a14 a15 a16 : (⟨1, ![128]⟩ : Shape).Idx → EReal) : Inp where
  h := mat a0
  src := fun e => srcIdx (a1 (ix2 (0 : Fin 2) e))
  dst := fun e => (a1 (ix2 (1 : Fin 2) e)).toInt
  ea := mat a2
  w1 := mat a3
  b1 := vec a4
  g1 := vec a5
  bb1 := vec a6
  w2 := mat a7
  b2 := vec a8
  mw1 := mat a9
  mb1 := vec a10
  mg1 := vec a11
  mbb1 := vec a12
  mw2 := mat a13
  mb2 := vec a14
  mg2 := vec a15
  mbb2 := vec a16

end Cert.Gin

end
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic

noncomputable section

namespace Cert.LibIdealReal

open Idealize.ShloMosaic
open scoped BigOperators

/-! The operations of the extended reals on coerced reals give the coerced real operation. -/

theorem mul_coe (a b : ℝ) : (a : EReal) * (b : EReal) = ((a * b : ℝ) : EReal) := (EReal.coe_mul a b).symm

theorem add_coe (a b : ℝ) : (a : EReal) + (b : EReal) = ((a + b : ℝ) : EReal) := (EReal.coe_add a b).symm

theorem sub_coe (a b : ℝ) : (a : EReal) - (b : EReal) = ((a - b : ℝ) : EReal) := (EReal.coe_sub a b).symm

theorem max_coe (a b : ℝ) : max (a : EReal) (b : EReal) = ((max a b : ℝ) : EReal) :=
  (EReal.coe_strictMono.monotone.map_max (a := a) (b := b)).symm

theorem zero_coe : (0 : EReal) = ((0 : ℝ) : EReal) := EReal.coe_zero.symm

/-- The quotient by a nonzero real is the product with its inverse. -/
theorem div_coe (a : ℝ) {b : ℝ} (h : b ≠ 0) : Ideal.div (a : EReal) (b : EReal) = ((a / b : ℝ) : EReal) := by
  rw [Ideal.div_coe h, mul_coe, mul_one_div]

/-- A finite sum of extended reals, each a coerced real, is the coerced sum: induction on the index set. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  classical
  rw [Finset.sum_congr rfl hg]
  refine Finset.induction_on s (by simp) fun i s hi ih => ?_
  rw [Finset.sum_insert hi, Finset.sum_insert hi, ih, EReal.coe_add]

end Cert.LibIdealReal

end
-- ==== Proof.SpecMath.lean ====
import proofs.«416878_j12463995093413_1_alg».proof.Proof.Spec
import proofs.«416878_j12463995093413_1_alg».proof.Proof.LibIdealReal
import Mathlib.Tactic.Ring
import Mathlib.Tactic.FieldSimp
import Mathlib.Tactic.NormNum
import Mathlib.Tactic.Positivity
import Mathlib.Tactic.Linarith
import Mathlib.Algebra.BigOperators.Ring.Finset
import Mathlib.Algebra.Order.BigOperators.Group.Finset
import Mathlib.Data.Real.Basic

noncomputable section

namespace Cert.Gin

open Idealize.ShloMosaic
open Cert.LibIdealReal
open scoped BigOperators

theorem cE_eq : cE = ((600000 : ℝ) : EReal) := by
  unfold cE
  simp [Ideal.ofBits, Ideal.ieee, -EReal.coe_mul]; norm_num

theorem cN_eq : cN = ((50000 : ℝ) : EReal) := by
  unfold cN
  simp [Ideal.ofBits, Ideal.ieee, -EReal.coe_mul]; norm_num

theorem eps_pos : ∃ e : ℝ, eps = (e : EReal) ∧ 0 < e := by
  have h : eps = ((10995116 / 2 ^ 40 : ℝ) : EReal) := by
    unfold eps
    simp [Ideal.ofBits, Ideal.ieee, -EReal.coe_mul]; norm_num
  exact ⟨_, h, by positivity⟩

/-- Over the reals, with `c` the number of terms: E[f²] − E[f]² = E[(f − E[f])²], by expanding the square. -/
theorem real_var (n : ℕ) (c : ℝ) (hc : (n : ℝ) = c) (hc0 : c ≠ 0) (f : Fin n → ℝ) :
    (∑ i, f i * f i) / c - (∑ i, f i) / c * ((∑ i, f i) / c) =
      (∑ i, (f i - (∑ i, f i) / c) * (f i - (∑ i, f i) / c)) / c := by
  generalize hs : ∑ i, f i = s
  have h : ∑ i, (f i - s / c) * (f i - s / c)
      = (∑ i, f i * f i) - 2 * (s / c) * s + c * (s / c * (s / c)) := by
    have e : ∀ i, (f i - s / c) * (f i - s / c) = f i * f i - 2 * (s / c) * f i + s / c * (s / c) :=
      fun i => by ring
    rw [Finset.sum_congr rfl (fun i _ => e i), Finset.sum_add_distrib, Finset.sum_sub_distrib,
      ← Finset.mul_sum, hs, Finset.sum_const, Finset.card_univ, Fintype.card_fin, nsmul_eq_mul, hc]
  rw [h]
  field_simp
  ring

abbrev RealM {n d : ℕ} (x : Mat n d) : Prop := ∀ i j, IsR (x i j)
abbrev RealRow {d : ℕ} (v : Row d) : Prop := ∀ j, IsR (v j)
abbrev NNR {d : ℕ} (v : Row d) : Prop := ∀ j, ∃ r : ℝ, v j = (r : EReal) ∧ 0 ≤ r

theorem IsR.add {x y : EReal} (hx : IsR x) (hy : IsR y) : IsR (x + y) := by
  obtain ⟨a, rfl⟩ := hx
  obtain ⟨b, rfl⟩ := hy
  exact ⟨a + b, add_coe a b⟩

theorem IsR.sub {x y : EReal} (hx : IsR x) (hy : IsR y) : IsR (x - y) := by
  obtain ⟨a, rfl⟩ := hx
  obtain ⟨b, rfl⟩ := hy
  exact ⟨a - b, sub_coe a b⟩

theorem IsR.mul {x y : EReal} (hx : IsR x) (hy : IsR y) : IsR (x * y) := by
  obtain ⟨a, rfl⟩ := hx
  obtain ⟨b, rfl⟩ := hy
  exact ⟨a * b, mul_coe a b⟩

theorem IsR.max0 {x : EReal} (hx : IsR x) : IsR (max x 0) := by
  obtain ⟨a, rfl⟩ := hx
  exact ⟨max a 0, by rw [zero_coe, max_coe]⟩

theorem IsR.sum {ι : Type*} (s : Finset ι) (g : ι → EReal) (hg : ∀ i ∈ s, IsR (g i)) :
    IsR (∑ i ∈ s, g i) := by
  classical
  induction s using Finset.induction_on with
  | empty => exact ⟨0, by simp⟩
  | insert i s hi ih =>
    rw [Finset.sum_insert hi]
    exact (hg i (Finset.mem_insert_self i s)).add (ih (fun k hk => hg k (Finset.mem_insert_of_mem hk)))

theorem IsR.div_lit {x : EReal} (hx : IsR x) {c : ℝ} (hc : c ≠ 0) : IsR (Ideal.div x (c : EReal)) := by
  obtain ⟨a, rfl⟩ := hx
  exact ⟨a / c, div_coe a hc⟩

theorem IsR.rsqrt_pos {r : ℝ} (hr : 0 < r) : IsR (Ideal.rsqrt (r : EReal)) := by
  rw [Ideal.rsqrt_coe, if_neg (not_lt.mpr hr.le), if_neg hr.ne']
  exact ⟨_, rfl⟩

theorem lin_real {n k d : ℕ} {x : Mat n k} {w : Mat k d} {b : Row d} (hx : RealM x) (hw : RealM w)
    (hb : RealRow b) : RealM (lin x w b) :=
  fun i j => (IsR.sum _ _ (fun t _ => (hx i t).mul (hw t j))).add (hb j)

theorem mean_real {n d : ℕ} {c : ℝ} (hc : c ≠ 0) {x : Mat n d} (hx : RealM x) :
    RealRow (mean (c : EReal) x) :=
  fun j => (IsR.sum _ _ (fun i _ => hx i j)).div_lit hc

theorem bnrelu_real {n d : ℕ} {x : Mat n d} {mu var g bb : Row d} (hx : RealM x) (hmu : RealRow mu)
    (hv : NNR var) (hg : RealRow g) (hbb : RealRow bb) : RealM (bnrelu x mu var g bb) := by
  intro i j
  obtain ⟨e, he, hep⟩ := eps_pos
  obtain ⟨r, hr, hr0⟩ := hv j
  have hrs : IsR (Ideal.rsqrt (var j + eps)) := by
    rw [hr, he, add_coe]
    exact IsR.rsqrt_pos (by linarith)
  exact (((((hx i j).sub (hmu j)).mul hrs).mul (hg j)).add (hbb j)).max0

theorem scat_real {m n d : ℕ} (dst : Fin m → ℤ) {u : Mat m d} (hu : RealM u) :
    RealM (scat dst u : Mat n d) :=
  fun _ j => IsR.sum _ _ (fun e _ => hu e j)

theorem mean_coe {n d : ℕ} {c : ℝ} (hc0 : c ≠ 0) (x : Mat n d) (j : Fin d) (f : Fin n → ℝ)
    (hf : ∀ i, x i j = (f i : EReal)) : mean (c : EReal) x j = (((∑ i, f i) / c : ℝ) : EReal) := by
  unfold mean csum
  rw [sum_of_eq _ _ f (fun i _ => hf i), div_coe _ hc0]

theorem varR_coe {n d : ℕ} {c : ℝ} (hc0 : c ≠ 0) (x : Mat n d) (j : Fin d) (f : Fin n → ℝ)
    (hf : ∀ i, x i j = (f i : EReal)) :
    varR (c : EReal) x j
      = (((∑ i, (f i - (∑ i, f i) / c) * (f i - (∑ i, f i) / c)) / c : ℝ) : EReal) := by
  have hm := mean_coe hc0 x j f hf
  have hd : ∑ i, (x i j - mean (c : EReal) x j) * (x i j - mean (c : EReal) x j)
      = ((∑ i, (f i - (∑ i, f i) / c) * (f i - (∑ i, f i) / c) : ℝ) : EReal) :=
    sum_of_eq _ _ _ (fun i _ => by rw [hm, hf i, sub_coe, mul_coe])
  unfold varR
  rw [hd, div_coe _ hc0]

theorem varK_coe {n d : ℕ} {c : ℝ} (hc0 : c ≠ 0) (x : Mat n d) (j : Fin d) (f : Fin n → ℝ)
    (hf : ∀ i, x i j = (f i : EReal)) :
    varK (c : EReal) x j
      = (((∑ i, f i * f i) / c - (∑ i, f i) / c * ((∑ i, f i) / c) : ℝ) : EReal) := by
  have hm := mean_coe hc0 x j f hf
  have hq : ∑ i, x i j * x i j = ((∑ i, f i * f i : ℝ) : EReal) :=
    sum_of_eq _ _ _ (fun i _ => by rw [hf i, mul_coe])
  unfold varK csumsq
  rw [hm, hq, div_coe _ hc0, mul_coe, sub_coe]

/-- On real data the two variances agree: both are coerced reals, equal by `real_var`. -/
theorem varK_eq_varR {n d : ℕ} (c : ℝ) (hc : (n : ℝ) = c) (hc0 : c ≠ 0) {x : Mat n d} (hx : RealM x) :
    varK (c : EReal) x = varR (c : EReal) x := by
  funext j
  choose f hf using fun i => hx i j
  rw [varK_coe hc0 x j f hf, varR_coe hc0 x j f hf, real_var n c hc hc0 f]

/-- A mean of squares of reals is a nonnegative real, so adding the positive epsilon keeps the inverse square root real. -/
theorem varR_nn {n d : ℕ} (c : ℝ) (hc0 : 0 < c) {x : Mat n d} (hx : RealM x) : NNR (varR (c : EReal) x) := by
  intro j
  choose f hf using fun i => hx i j
  exact ⟨_, varR_coe hc0.ne' x j f hf,
    div_nonneg (Finset.sum_nonneg (fun i _ => mul_self_nonneg _)) hc0.le⟩

theorem meanE_real {d : ℕ} {x : Mat NE d} (hx : RealM x) : RealRow (mean cE x) := by
  rw [cE_eq]; exact mean_real (by norm_num) hx

theorem meanN_real {d : ℕ} {x : Mat NN d} (hx : RealM x) : RealRow (mean cN x) := by
  rw [cN_eq]; exact mean_real (by norm_num) hx

theorem varE_eq {d : ℕ} {x : Mat NE d} (hx : RealM x) : varK cE x = varR cE x := by
  rw [cE_eq]; exact varK_eq_varR _ (by norm_num) (by norm_num) hx

theorem varN_eq {d : ℕ} {x : Mat NN d} (hx : RealM x) : varK cN x = varR cN x := by
  rw [cN_eq]; exact varK_eq_varR _ (by norm_num) (by norm_num) hx

theorem varE_nn {d : ℕ} {x : Mat NE d} (hx : RealM x) : NNR (varR cE x) := by
  rw [cE_eq]; exact varR_nn _ (by norm_num) hx

theorem varN_nn {d : ℕ} {x : Mat NN d} (hx : RealM x) : NNR (varR cN x) := by
  rw [cN_eq]; exact varR_nn _ (by norm_num) hx

section walk

variable (I : Inp) (hI : I.Real)
include hI

theorem x1_real : RealM (x1 I) := lin_real hI.ea hI.w1 hI.b1

theorem emb_real {v : Row DD} (hv : NNR v) : RealM (emb I v) :=
  lin_real (bnrelu_real (x1_real I hI) (meanE_real (x1_real I hI)) hv hI.g1 hI.bb1) hI.w2 hI.b2

theorem hnew_real {v : Row DD} (hv : NNR v) : RealM (hnew I v) :=
  fun r j => (hI.h r j).add (scat_real I.dst (emb_real I hI hv) r j)

theorem zin_real {v : Row DD} (hv : NNR v) : RealM (zin I v) :=
  fun r j => (hnew_real I hI hv r j).add
    (scat_real I.dst (fun e j => hnew_real I hI hv (I.src e) j) r j)

theorem y1_real {v : Row DD} (hv : NNR v) : RealM (y1 I v) :=
  lin_real (zin_real I hI hv) hI.mw1 hI.mb1

theorem r1_real {v v1 : Row DD} (hv : NNR v) (hv1 : NNR v1) : RealM (r1 I v v1) :=
  bnrelu_real (y1_real I hI hv) (meanN_real (y1_real I hI hv)) hv1 hI.mg1 hI.mbb1

theorem y2_real {v v1 : Row DD} (hv : NNR v) (hv1 : NNR v1) : RealM (y2 I v v1) :=
  lin_real (r1_real I hI hv hv1) hI.mw2 hI.mb2

/-- On real inputs every intermediate matrix is real, so each `varK` may be replaced by `varR`, outermost last. -/
theorem outK_eq_outR : outK I = outR I := by
  have h1 : varK cE (x1 I) = varR cE (x1 I) := varE_eq (x1_real I hI)
  have n1 : NNR (varR cE (x1 I)) := varE_nn (x1_real I hI)
  have h2 : varK cN (y1 I (varR cE (x1 I))) = varR cN (y1 I (varR cE (x1 I))) :=
    varN_eq (y1_real I hI n1)
  have n2 : NNR (varR cN (y1 I (varR cE (x1 I)))) := varN_nn (y1_real I hI n1)
  have h3 : varK cN (y2 I (varR cE (x1 I)) (varR cN (y1 I (varR cE (x1 I)))))
      = varR cN (y2 I (varR cE (x1 I)) (varR cN (y1 I (varR cE (x1 I))))) :=
    varN_eq (y2_real I hI n1 n2)
  unfold outK outR
  rw [h1, h2, h3]

end walk

end Cert.Gin

end
-- ==== Proof.InpK.lean ====
import proofs.«416878_j12463995093413_1_alg».proof.KernelIdeal
import proofs.«416878_j12463995093413_1_alg».proof.Proof.Spec

noncomputable section

namespace Cert.Proof

open Idealize.ShloMosaic Idealize.SL.Sem Cert.KernelIdeal

def inpK (m : (ℓ : Loc nD τ sig) → Buf (Elt Ideal) ℓ) (c : Dev nD) : Cert.Gin.Inp :=
  Cert.Gin.mkInp (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14)) (m ((c.tc : Thread nD τ).loc main_arg15))
    (m ((c.tc : Thread nD τ).loc main_arg16))

end Cert.Proof

end
-- ==== Proof.PreFacts.lean ====
import proofs.«416878_j12463995093413_1_alg».proof.Defs
import proofs.«416878_j12463995093413_1_alg».proof.Proof.Gen.Pre_finite_inputs
import proofs.«416878_j12463995093413_1_alg».proof.Proof.InpK
import proofs.«416878_j12463995093413_1_alg».proof.Proof.Spec
import Idealize.ShloMosaic.Lib.ReduceAll
import Idealize.ShloMosaic.Lib.StableHlo.Predicate
import Idealize.ShloMosaic.Lib.ValueIdx
import Idealize.ShloMosaic.Lib.ValueLayout

noncomputable section

namespace Cert.Proof.PreFacts

open Idealize.ShloMosaic Idealize.ShloMosaic.ValueIdx Idealize.SL.Sem

theorem scalar_idx_subsingleton : Subsingleton (⟨0, ![]⟩ : Shape).Idx := ⟨fun a b => funext fun d => d.elim0⟩

attribute [local instance] scalar_idx_subsingleton

theorem inf_eq_top : Ideal.ofBits .f32 0x7F800000#32 = (⊤ : EReal) := by simp [Ideal.ofBits, Ideal.ieee]

/-- An extended real with `max x (-x) < ⊤` is neither infinity, so it is a real number. -/
theorem isR_of_abs_lt (x : EReal)
    (h : FloatOps.cmpf (F := Ideal) (φ := .f32) .olt (FloatOps.hostAbsf (F := Ideal) (φ := .f32) x)
      (FloatOps.ofBits (F := Ideal) .f32 0x7F800000#32) = 1#1) : Cert.Gin.IsR x := by
  have h' : max x (-x) < (⊤ : EReal) := by
    change BitVec.ofBool (decide (max x (-x) < Ideal.ofBits .f32 0x7F800000#32)) = 1#1 at h
    rw [inf_eq_top, StableHlo.Predicate.ofBool_eq_one_iff] at h
    exact of_decide_eq_true h
  induction x using EReal.rec with
  | bot => simp at h'
  | coe r => exact ⟨r, rfl⟩
  | top => simp at h'

theorem isR_of_all {s : Shape} {axes : List (Fin s.rank)} (x : s.Idx → EReal)
    (bc : (⟨0, ![]⟩ : Shape).BroadcastsInDim s (![] : Fin 0 → Fin s.rank)) (init : IVec (⟨0, ![]⟩ : Shape) 1)
    (hr : s.ReducesTo axes (⟨0, ![]⟩ : Shape)) (hu : 0 < (⟨0, ![]⟩ : Shape).numel)
    (e : Host.reduce IntOp.andi
      (cmpf (F := Ideal) (φ := .f32) .olt (Host.absf (F := Ideal) (φ := .f32) x)
        (broadcastInDim s ![] bc (constant (F := Ideal) (⟨0, ![]⟩ : Shape) .f32 0x7F800000#32))) init hr hu ix0 = 1#1)
    (i : s.Idx) : Cert.Gin.IsR (x i) :=
  isR_of_abs_lt (x i) (Host.reduce_andi_all _ init hr hu ix0 e i)

theorem word_range (w : BitVec 32) (h : IntOp.andi (IntOp.cmpi .sge w 0#32) (IntOp.cmpi .slt w 50000#32) = 1#1) :
    0 ≤ w.toInt ∧ w.toInt < 50000 := by
  obtain ⟨h0, h1⟩ := IntOp.andi_eq_one.1 h
  rw [IntOp.cmpi_sge] at h0
  rw [IntOp.cmpi_slt] at h1
  have z : (0#32 : BitVec 32).toInt = 0 := by decide
  have t : (50000#32 : BitVec 32).toInt = 50000 := by decide
  rw [z] at h0
  rw [t] at h1
  exact ⟨h0, h1⟩

theorem row0_apply {α : Type} {n : ℕ} (a : (⟨2, ![2, n]⟩ : Shape).Idx → α)
    (hs : (⟨2, ![2, n]⟩ : Shape).Slices ![0, 0] ⟨2, ![1, n]⟩) (hc : (⟨2, ![1, n]⟩ : Shape).ShapeCasts ⟨1, ![n]⟩) (e : Fin n) :
    shapeCast ⟨1, ![n]⟩ (extractStridedSlice ⟨2, ![1, n]⟩ ![0, 0] a hs) hc (ix1 e) = a (ix2 (0 : Fin 2) e) := by
  rw [shapeCast_1a_a_apply]
  refine extractStridedSlice_apply _ _ _ _ _ (fun d => ?_)
  fin_cases d
  · show (0 : ℕ) = 0 + 0
    rfl
  · show e.val = 0 + e.val
    rw [Nat.zero_add]

/-- The precondition is a conjunction over the inputs: each float array entrywise finite, each source word in [0, 50000). -/
theorem pre_all (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (inpK m c).Real ∧ ∀ e : Fin 600000,
      0 ≤ (m ((c.tc : Thread Cert.KernelIdeal.nD Cert.KernelIdeal.τ).loc Cert.KernelIdeal.main_arg1) (ix2 (0 : Fin 2) e)).toInt
      ∧ (m ((c.tc : Thread Cert.KernelIdeal.nD Cert.KernelIdeal.τ).loc Cert.KernelIdeal.main_arg1) (ix2 (0 : Fin 2) e)).toInt < 50000 := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at e
  simp only [IntOp.andi_eq_one] at e
  obtain ⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e1⟩ := e
  refine ⟨⟨?_, ?_, ?_, ?_, ?_, ?_, ?_, ?_, ?_, ?_, ?_, ?_, ?_, ?_, ?_, ?_⟩, ?_⟩
  · exact fun r j => isR_of_all _ _ _ _ _ e0 (ix2 r j)
  · exact fun r j => isR_of_all _ _ _ _ _ e2 (ix2 r j)
  · exact fun r j => isR_of_all _ _ _ _ _ e3 (ix2 r j)
  · exact fun j => isR_of_all _ _ _ _ _ e4 (ix1 j)
  · exact fun j => isR_of_all _ _ _ _ _ e5 (ix1 j)
  · exact fun j => isR_of_all _ _ _ _ _ e6 (ix1 j)
  · exact fun r j => isR_of_all _ _ _ _ _ e7 (ix2 r j)
  · exact fun j => isR_of_all _ _ _ _ _ e8 (ix1 j)
  · exact fun r j => isR_of_all _ _ _ _ _ e9 (ix2 r j)
  · exact fun j => isR_of_all _ _ _ _ _ e10 (ix1 j)
  · exact fun j => isR_of_all _ _ _ _ _ e11 (ix1 j)
  · exact fun j => isR_of_all _ _ _ _ _ e12 (ix1 j)
  · exact fun r j => isR_of_all _ _ _ _ _ e13 (ix2 r j)
  · exact fun j => isR_of_all _ _ _ _ _ e14 (ix1 j)
  · exact fun j => isR_of_all _ _ _ _ _ e15 (ix1 j)
  · exact fun j => isR_of_all _ _ _ _ _ e16 (ix1 j)
  · intro ed
    have hi := Host.reduce_andi_all _ _ _ _ ix0 e1 (ix1 ed)
    have hw := row0_apply (m ((c.tc : Thread Cert.KernelIdeal.nD Cert.KernelIdeal.τ).loc Cert.KernelIdeal.main_arg1))
      Cert.Pre_finite_inputs.Facts.slices_S2x600000_S1x600000_0_0 Cert.Pre_finite_inputs.Facts.shapeCasts_S1x600000_S600000 ed
    refine word_range _ ?_
    rw [← hw]
    exact hi

end Cert.Proof.PreFacts

namespace Cert.Proof

open Idealize.ShloMosaic Idealize.ShloMosaic.ValueIdx Idealize.SL.Sem

theorem pre_real (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) : (inpK m c).Real :=
  (PreFacts.pre_all m h c).1

theorem pre_src (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) (e : Fin 600000) :
    0 ≤ (m ((c.tc : Thread Cert.KernelIdeal.nD Cert.KernelIdeal.τ).loc Cert.KernelIdeal.main_arg1) (ix2 (0 : Fin 2) e)).toInt
    ∧ (m ((c.tc : Thread Cert.KernelIdeal.nD Cert.KernelIdeal.τ).loc Cert.KernelIdeal.main_arg1) (ix2 (0 : Fin 2) e)).toInt < 50000 :=
  (PreFacts.pre_all m h c).2 e

end Cert.Proof

end
-- ==== Proof.Ref.Ops.lean ====
import proofs.«416878_j12463995093413_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

-- `after` is a left fold over the operations, so it splits at a concatenation.
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => after_app l₁ l₂ (op.result V)

abbrev opsA : List (HloOp τ sig (Elt F)) :=
  [ unary main_arg1 main_v0 (extractStridedSlice S1x600000 ![0, 0] · slices_S2x600000_S1x600000_0_0),
    reshape main_v0 main_v1 rfl shapeCasts_S1x600000_S600000,
    unary main_arg1 main_v2 (extractStridedSlice S1x600000 ![1, 0] · slices_S2x600000_S1x600000_1_0),
    reshape main_v2 main_v3 rfl shapeCasts_S1x600000_S600000,
    binary main_arg2 main_arg3 main_v4 (fun l r => Host.dotGeneral dot_S600000x16_S16x128_S600000x128_1_0_0_1_n_n none l r),
    unary main_arg4 main_v5 (broadcastInDim S1x128 ![1] bcast_S128_S1x128_1),
    unary main_v5 main_v6 (broadcastInDim S600000x128 ![0, 1] bcast_S1x128_S600000x128_0_1),
    binary main_v4 main_v6 main_v7 addf,
    nullary main_cst (constant S_ .f32 0x00000000#32),
    binary main_v7 main_cst main_v8 (fun x v => Host.reduceAdd x v reducesTo_S600000x128_S128_d0 h_S_),
    nullary main_cst_0 (constant S_ .f32 0x49127C00#32),
    unary main_cst_0 main_v9 (broadcastInDim S128 ![] bcast_S_S128),
    binary main_v8 main_v9 main_v10 Host.divf ]

abbrev opsB0 : List (HloOp τ sig (Elt F)) :=
  [ nullary main_c (constantI S_ 32 0#32) ]

abbrev opsB1 : List (HloOp τ sig (Elt F)) :=
  [ TRef.nullary main_call0.cst (constant S_ .f32 0x00000000#32),
    TRef.binary (.of main_v7 : TRef sig ⟨S600000x128, .f32⟩) main_call0.cst main_call0.v0 (fun x v => Host.reduceAdd x v reducesTo_S600000x128_S128_d0 h_S_),
    TRef.unary main_call0.v0 main_call0.v1 (broadcastInDim S1x128 ![1] bcast_S128_S1x128_1),
    TRef.nullary main_call0.cst_0 (constant S_ .f32 0x49127C00#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S600000x128 ![0, 1] bcast_S1x128_S600000x128_0_1),
    TRef.binary (.of main_v7 : TRef sig ⟨S600000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x49127C00#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S600000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

abbrev opsB : List (HloOp τ sig (Elt F)) := opsB0 ++ opsB1

abbrev opsC0 : List (HloOp τ sig (Elt F)) :=
  [ unary main_v10 main_v12 (broadcastInDim S1x128 ![1] bcast_S128_S1x128_1),
    unary main_v12 main_v13 (broadcastInDim S600000x128 ![0, 1] bcast_S1x128_S600000x128_0_1),
    binary main_v7 main_v13 main_v14 subf,
    nullary main_cst_1 (constant S_ .f32 0x3727C5AC#32),
    unary main_cst_1 main_v15 (broadcastInDim S128 ![] bcast_S_S128),
    binary main_v11 main_v15 main_v16 addf,
    unary main_v16 main_v17 Host.rsqrt,
    unary main_v17 main_v18 (broadcastInDim S1x128 ![1] bcast_S128_S1x128_1),
    unary main_v18 main_v19 (broadcastInDim S600000x128 ![0, 1] bcast_S1x128_S600000x128_0_1),
    binary main_v14 main_v19 main_v20 mulf,
    unary main_arg5 main_v21 (broadcastInDim S1x128 ![1] bcast_S128_S1x128_1),
    unary main_v21 main_v22 (broadcastInDim S600000x128 ![0, 1] bcast_S1x128_S600000x128_0_1),
    binary main_v20 main_v22 main_v23 mulf,
    unary main_arg6 main_v24 (broadcastInDim S1x128 ![1] bcast_S128_S1x128_1),
    unary main_v24 main_v25 (broadcastInDim S600000x128 ![0, 1] bcast_S1x128_S600000x128_0_1),
    binary main_v23 main_v25 main_v26 addf ]

abbrev opsC1 : List (HloOp τ sig (Elt F)) :=
  [ TRef.nullary main_call1.cst (constant S_ .f32 0x00000000#32),
    TRef.unary main_call1.cst main_call1.v0 (broadcastInDim S600000x128 ![] bcast_S_S600000x128),
    TRef.binary (.of main_v26 : TRef sig ⟨S600000x128, .f32⟩) main_call1.v0 main_call1.v1 maximumf ]

abbrev opsC2 : List (HloOp τ sig (Elt F)) :=
  [ binary main_v27 main_arg7 main_v28 (fun l r => Host.dotGeneral dot_S600000x128_S128x128_S600000x128_1_0_0_1_n_n none l r),
    unary main_arg8 main_v29 (broadcastInDim S1x128 ![1] bcast_S128_S1x128_1),
    unary main_v29 main_v30 (broadcastInDim S600000x128 ![0, 1] bcast_S1x128_S600000x128_0_1),
    binary main_v28 main_v30 main_v31 addf ]

abbrev opsC : List (HloOp τ sig (Elt F)) := opsC0 ++ opsC1 ++ opsC2

abbrev opsD : List (HloOp τ sig (Elt F)) :=
  [ nullary main_cst_2 (constant S_ .f32 0x00000000#32),
    unary main_cst_2 main_v32 (broadcastInDim S50000x128 ![] bcast_S_S50000x128),
    unary main_v3 main_v33 (broadcastInDim S600000x1 ![0] bcast_S600000_S600000x1_0),
    ternary main_v32 main_v33 main_v31 main_v34 (fun x i u => Host.scatterAdd scatter_S50000x128_S600000x1_S600000x128_1_0_0_1 x i u),
    binary main_arg0 main_v34 main_v35 addf ]

abbrev opsE : List (HloOp τ sig (Elt F)) :=
  [ nullary main_c_3 (constantI S_ 32 0#32),
    unary main_c_3 main_v36 (broadcastInDim S600000 ![] bcast_S_S600000),
    binary main_v1 main_v36 main_v37 (cmpi .slt),
    nullary main_c_4 (constantI S_ 32 50000#32),
    unary main_c_4 main_v38 (broadcastInDim S600000 ![] bcast_S_S600000),
    binary main_v1 main_v38 main_v39 addi,
    ternary main_v37 main_v39 main_v1 main_v40 select,
    unary main_v40 main_v41 (broadcastInDim S600000x1 ![0] bcast_S600000_S600000x1_0),
    binary main_v35 main_v41 main_v42 (fun x i => Host.gather gather_S50000x128_S600000x1_S600000x128_1_0_n_n_0_1_1128 x i),
    nullary main_cst_5 (constant S_ .f32 0x00000000#32),
    unary main_cst_5 main_v43 (broadcastInDim S50000x128 ![] bcast_S_S50000x128),
    unary main_v3 main_v44 (broadcastInDim S600000x1 ![0] bcast_S600000_S600000x1_0),
    ternary main_v43 main_v44 main_v42 main_v45 (fun x i u => Host.scatterAdd scatter_S50000x128_S600000x1_S600000x128_1_0_0_1 x i u),
    binary main_v35 main_v45 main_v46 addf ]

abbrev opsF0 : List (HloOp τ sig (Elt F)) :=
  [ binary main_v46 main_arg9 main_v47 (fun l r => Host.dotGeneral dot_S50000x128_S128x128_S50000x128_1_0_0_1_n_n none l r),
    unary main_arg10 main_v48 (broadcastInDim S1x128 ![1] bcast_S128_S1x128_1),
    unary main_v48 main_v49 (broadcastInDim S50000x128 ![0, 1] bcast_S1x128_S50000x128_0_1),
    binary main_v47 main_v49 main_v50 addf,
    nullary main_cst_6 (constant S_ .f32 0x00000000#32) ]

abbrev opsF1 : List (HloOp τ sig (Elt F)) :=
  [ binary main_v50 main_cst_6 main_v51 (fun x v => Host.reduceAdd x v reducesTo_S50000x128_S128_d0 h_S_),
    nullary main_cst_7 (constant S_ .f32 0x47435000#32),
    unary main_cst_7 main_v52 (broadcastInDim S128 ![] bcast_S_S128),
    binary main_v51 main_v52 main_v53 Host.divf ]

abbrev opsF : List (HloOp τ sig (Elt F)) := opsF0 ++ opsF1

abbrev opsG0 : List (HloOp τ sig (Elt F)) :=
  [ nullary main_c_8 (constantI S_ 32 0#32) ]

abbrev opsG1 : List (HloOp τ sig (Elt F)) :=
  [ TRef.nullary main_call2.cst (constant S_ .f32 0x00000000#32),
    TRef.binary (.of main_v50 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v50 : TRef sig ⟨S50000x128, .f32⟩) main_call2.v4 main_call2.v5 subf,
    TRef.binary main_call2.v5 main_call2.v5 main_call2.v6 mulf,
    TRef.unary (.of main_c_8 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

abbrev opsG : List (HloOp τ sig (Elt F)) := opsG0 ++ opsG1

abbrev opsH0 : List (HloOp τ sig (Elt F)) :=
  [ unary main_v53 main_v55 (broadcastInDim S1x128 ![1] bcast_S128_S1x128_1),
    unary main_v55 main_v56 (broadcastInDim S50000x128 ![0, 1] bcast_S1x128_S50000x128_0_1),
    binary main_v50 main_v56 main_v57 subf,
    nullary main_cst_9 (constant S_ .f32 0x3727C5AC#32),
    unary main_cst_9 main_v58 (broadcastInDim S128 ![] bcast_S_S128),
    binary main_v54 main_v58 main_v59 addf,
    unary main_v59 main_v60 Host.rsqrt,
    unary main_v60 main_v61 (broadcastInDim S1x128 ![1] bcast_S128_S1x128_1),
    unary main_v61 main_v62 (broadcastInDim S50000x128 ![0, 1] bcast_S1x128_S50000x128_0_1),
    binary main_v57 main_v62 main_v63 mulf,
    unary main_arg11 main_v64 (broadcastInDim S1x128 ![1] bcast_S128_S1x128_1),
    unary main_v64 main_v65 (broadcastInDim S50000x128 ![0, 1] bcast_S1x128_S50000x128_0_1),
    binary main_v63 main_v65 main_v66 mulf,
    unary main_arg12 main_v67 (broadcastInDim S1x128 ![1] bcast_S128_S1x128_1),
    unary main_v67 main_v68 (broadcastInDim S50000x128 ![0, 1] bcast_S1x128_S50000x128_0_1),
    binary main_v66 main_v68 main_v69 addf ]

abbrev opsH1 : List (HloOp τ sig (Elt F)) :=
  [ TRef.nullary main_call3.cst (constant S_ .f32 0x00000000#32),
    TRef.unary main_call3.cst main_call3.v0 (broadcastInDim S50000x128 ![] bcast_S_S50000x128),
    TRef.binary (.of main_v69 : TRef sig ⟨S50000x128, .f32⟩) main_call3.v0 main_call3.v1 maximumf ]

abbrev opsH2 : List (HloOp τ sig (Elt F)) :=
  [ binary main_v70 main_arg13 main_v71 (fun l r => Host.dotGeneral dot_S50000x128_S128x128_S50000x128_1_0_0_1_n_n none l r),
    unary main_arg14 main_v72 (broadcastInDim S1x128 ![1] bcast_S128_S1x128_1),
    unary main_v72 main_v73 (broadcastInDim S50000x128 ![0, 1] bcast_S1x128_S50000x128_0_1),
    binary main_v71 main_v73 main_v74 addf,
    nullary main_cst_10 (constant S_ .f32 0x00000000#32),
    binary main_v74 main_cst_10 main_v75 (fun x v => Host.reduceAdd x v reducesTo_S50000x128_S128_d0 h_S_),
    nullary main_cst_11 (constant S_ .f32 0x47435000#32),
    unary main_cst_11 main_v76 (broadcastInDim S128 ![] bcast_S_S128),
    binary main_v75 main_v76 main_v77 Host.divf ]

abbrev opsH : List (HloOp τ sig (Elt F)) := opsH0 ++ opsH1 ++ opsH2

abbrev opsI0 : List (HloOp τ sig (Elt F)) :=
  [ nullary main_c_12 (constantI S_ 32 0#32) ]

abbrev opsI1 : List (HloOp τ sig (Elt F)) :=
  [ TRef.nullary main_call4.cst (constant S_ .f32 0x00000000#32),
    TRef.binary (.of main_v74 : TRef sig ⟨S50000x128, .f32⟩) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v74 : TRef sig ⟨S50000x128, .f32⟩) main_call4.v4 main_call4.v5 subf,
    TRef.binary main_call4.v5 main_call4.v5 main_call4.v6 mulf,
    TRef.unary (.of main_c_12 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b) ]

abbrev opsI : List (HloOp τ sig (Elt F)) := opsI0 ++ opsI1

abbrev opsJ0 : List (HloOp τ sig (Elt F)) :=
  [ unary main_v77 main_v79 (broadcastInDim S1x128 ![1] bcast_S128_S1x128_1),
    unary main_v79 main_v80 (broadcastInDim S50000x128 ![0, 1] bcast_S1x128_S50000x128_0_1),
    binary main_v74 main_v80 main_v81 subf,
    nullary main_cst_13 (constant S_ .f32 0x3727C5AC#32),
    unary main_cst_13 main_v82 (broadcastInDim S128 ![] bcast_S_S128),
    binary main_v78 main_v82 main_v83 addf,
    unary main_v83 main_v84 Host.rsqrt,
    unary main_v84 main_v85 (broadcastInDim S1x128 ![1] bcast_S128_S1x128_1),
    unary main_v85 main_v86 (broadcastInDim S50000x128 ![0, 1] bcast_S1x128_S50000x128_0_1),
    binary main_v81 main_v86 main_v87 mulf,
    unary main_arg15 main_v88 (broadcastInDim S1x128 ![1] bcast_S128_S1x128_1),
    unary main_v88 main_v89 (broadcastInDim S50000x128 ![0, 1] bcast_S1x128_S50000x128_0_1),
    binary main_v87 main_v89 main_v90 mulf,
    unary main_arg16 main_v91 (broadcastInDim S1x128 ![1] bcast_S128_S1x128_1),
    unary main_v91 main_v92 (broadcastInDim S50000x128 ![0, 1] bcast_S1x128_S50000x128_0_1),
    binary main_v90 main_v92 main_v93 addf ]

abbrev opsJ1 : List (HloOp τ sig (Elt F)) :=
  [ TRef.nullary main_call5.cst (constant S_ .f32 0x00000000#32),
    TRef.unary main_call5.cst main_call5.v0 (broadcastInDim S50000x128 ![] bcast_S_S50000x128),
    TRef.binary (.of main_v93 : TRef sig ⟨S50000x128, .f32⟩) main_call5.v0 main_call5.v1 maximumf ]

abbrev opsJ : List (HloOp τ sig (Elt F)) := opsJ0 ++ opsJ1

abbrev ops : List (HloOp τ sig (Elt F)) :=
  opsA ++ opsB ++ opsC ++ opsD ++ opsE ++ opsF ++ opsG ++ opsH ++ opsI ++ opsJ

end Cert.ReferenceIdeal.Hand

end
-- ==== Proof.Ref.Keep.lean ====
import proofs.«416878_j12463995093413_1_alg».proof.Proof.Ref.Ops

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

abbrev wA : List (Ref sig .tc) := [main_v0, main_v1, main_v2, main_v3, main_v4, main_v5, main_v6, main_v7, main_cst, main_v8, main_cst_0, main_v9, main_v10]
abbrev wB0 : List (Ref sig .tc) := [main_c]
abbrev wB1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v11]
abbrev wC0 : List (Ref sig .tc) := [main_v12, main_v13, main_v14, main_cst_1, main_v15, main_v16, main_v17, main_v18, main_v19, main_v20, main_v21, main_v22, main_v23, main_v24, main_v25, main_v26]
abbrev wC1 : List (Ref sig .tc) := [main_call1_cst, main_call1_v0, main_v27]
abbrev wC2 : List (Ref sig .tc) := [main_v28, main_v29, main_v30, main_v31]
abbrev wD : List (Ref sig .tc) := [main_cst_2, main_v32, main_v33, main_v34, main_v35]
abbrev wE : List (Ref sig .tc) := [main_c_3, main_v36, main_v37, main_c_4, main_v38, main_v39, main_v40, main_v41, main_v42, main_cst_5, main_v43, main_v44, main_v45, main_v46]
abbrev wF0 : List (Ref sig .tc) := [main_v47, main_v48, main_v49, main_v50, main_cst_6]
abbrev wF1 : List (Ref sig .tc) := [main_v51, main_cst_7, main_v52, main_v53]
abbrev wG0 : List (Ref sig .tc) := [main_c_8]
abbrev wG1 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v54]
abbrev wH0 : List (Ref sig .tc) := [main_v55, main_v56, main_v57, main_cst_9, main_v58, main_v59, main_v60, main_v61, main_v62, main_v63, main_v64, main_v65, main_v66, main_v67, main_v68, main_v69]
abbrev wH1 : List (Ref sig .tc) := [main_call3_cst, main_call3_v0, main_v70]
abbrev wH2 : List (Ref sig .tc) := [main_v71, main_v72, main_v73, main_v74, main_cst_10, main_v75, main_cst_11, main_v76, main_v77]
abbrev wI0 : List (Ref sig .tc) := [main_c_12]
abbrev wI1 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v78]
abbrev wJ0 : List (Ref sig .tc) := [main_v79, main_v80, main_v81, main_cst_13, main_v82, main_v83, main_v84, main_v85, main_v86, main_v87, main_v88, main_v89, main_v90, main_v91, main_v92, main_v93]
abbrev wJ1 : List (Ref sig .tc) := [main_call5_cst, main_call5_v0, main_v94]

local macro "all_writes" : tactic =>
  `(tactic| (simp only [List.Forall]; (repeat' apply And.intro) <;>
      (simp only [nullary_writes, unary_writes, binary_writes, ternary_writes, reshape_writes,
        Finset.singleton_subset_iff, List.mem_toFinset]; exact List.mem_map_of_mem (by decide))))

variable (V : Valuation τ sig (Elt F)) (r : Ref sig .tc)

-- A piece writes exactly its listed results; any other reference passes through it unchanged.
theorem keepA (h : r ∉ wA) : after (opsA (F := F)) V (Proc.devRef .tc r) = V (Proc.devRef .tc r) := after_of_writes_sub _ V (by all_writes) h
theorem keepB0 (h : r ∉ wB0) : after (opsB0 (F := F)) V (Proc.devRef .tc r) = V (Proc.devRef .tc r) := after_of_writes_sub _ V (by all_writes) h
theorem keepB1 (h : r ∉ wB1) : after (opsB1 (F := F)) V (Proc.devRef .tc r) = V (Proc.devRef .tc r) := after_of_writes_sub _ V (by all_writes) h
theorem keepC0 (h : r ∉ wC0) : after (opsC0 (F := F)) V (Proc.devRef .tc r) = V (Proc.devRef .tc r) := after_of_writes_sub _ V (by all_writes) h
theorem keepC1 (h : r ∉ wC1) : after (opsC1 (F := F)) V (Proc.devRef .tc r) = V (Proc.devRef .tc r) := after_of_writes_sub _ V (by all_writes) h
theorem keepC2 (h : r ∉ wC2) : after (opsC2 (F := F)) V (Proc.devRef .tc r) = V (Proc.devRef .tc r) := after_of_writes_sub _ V (by all_writes) h
theorem keepD (h : r ∉ wD) : after (opsD (F := F)) V (Proc.devRef .tc r) = V (Proc.devRef .tc r) := after_of_writes_sub _ V (by all_writes) h
theorem keepE (h : r ∉ wE) : after (opsE (F := F)) V (Proc.devRef .tc r) = V (Proc.devRef .tc r) := after_of_writes_sub _ V (by all_writes) h
theorem keepF0 (h : r ∉ wF0) : after (opsF0 (F := F)) V (Proc.devRef .tc r) = V (Proc.devRef .tc r) := after_of_writes_sub _ V (by all_writes) h
theorem keepF1 (h : r ∉ wF1) : after (opsF1 (F := F)) V (Proc.devRef .tc r) = V (Proc.devRef .tc r) := after_of_writes_sub _ V (by all_writes) h
theorem keepG0 (h : r ∉ wG0) : after (opsG0 (F := F)) V (Proc.devRef .tc r) = V (Proc.devRef .tc r) := after_of_writes_sub _ V (by all_writes) h
theorem keepG1 (h : r ∉ wG1) : after (opsG1 (F := F)) V (Proc.devRef .tc r) = V (Proc.devRef .tc r) := after_of_writes_sub _ V (by all_writes) h
theorem keepH0 (h : r ∉ wH0) : after (opsH0 (F := F)) V (Proc.devRef .tc r) = V (Proc.devRef .tc r) := after_of_writes_sub _ V (by all_writes) h
theorem keepH1 (h : r ∉ wH1) : after (opsH1 (F := F)) V (Proc.devRef .tc r) = V (Proc.devRef .tc r) := after_of_writes_sub _ V (by all_writes) h
theorem keepH2 (h : r ∉ wH2) : after (opsH2 (F := F)) V (Proc.devRef .tc r) = V (Proc.devRef .tc r) := after_of_writes_sub _ V (by all_writes) h
theorem keepI0 (h : r ∉ wI0) : after (opsI0 (F := F)) V (Proc.devRef .tc r) = V (Proc.devRef .tc r) := after_of_writes_sub _ V (by all_writes) h
theorem keepI1 (h : r ∉ wI1) : after (opsI1 (F := F)) V (Proc.devRef .tc r) = V (Proc.devRef .tc r) := after_of_writes_sub _ V (by all_writes) h
theorem keepJ0 (h : r ∉ wJ0) : after (opsJ0 (F := F)) V (Proc.devRef .tc r) = V (Proc.devRef .tc r) := after_of_writes_sub _ V (by all_writes) h
theorem keepJ1 (h : r ∉ wJ1) : after (opsJ1 (F := F)) V (Proc.devRef .tc r) = V (Proc.devRef .tc r) := after_of_writes_sub _ V (by all_writes) h

end Cert.ReferenceIdeal.Hand

end
-- ==== Proof.Ref.Run.lean ====
import proofs.«416878_j12463995093413_1_alg».proof.Proof.Ref.Keep
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

theorem main_chain (c : Dev nD) : main (F := F) c = (Pipeline.chain
  [ seq opsA, seq opsB0, seq opsB1, seq opsC0, seq opsC1, seq opsC2, seq opsD, seq opsE, seq opsF0, seq opsF1,
    seq opsG0, seq opsG1, seq opsH0, seq opsH1, seq opsH2, seq opsI0, seq opsI1, seq opsJ0, seq opsJ1 ] :
    Prog (TpuEff nD τ sig (Elt F) (Pipeline.Sig Λ₀ (Fin 0) fun p => (pcfgs (F := F) p).Adm) .tc) PUnit) := by
  chain_rfl

theorem main_eq (c : Dev nD) : main (F := F) c = seq ops := by
  rw [main_chain c]
  simp only [seq_append, Pipeline.chain_cons, Pipeline.chain_nil, bind_assoc, bind_pure_unit]

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.forall_append, List.Forall, nullary_bufs_sub, unary_bufs_sub, binary_bufs_sub, ternary_bufs_sub,
    reshape_bufs_sub, and_self]

theorem ops_fresh : (ops : List (HloOp τ sig (Elt F))).Forall fun op => op.fresh = ∅ := by
  simp only [List.forall_append, List.Forall]; repeat' constructor

-- Outside all nineteen result lists, a reference passes through the whole line unchanged.
theorem kept (V : Valuation τ sig (Elt F)) (r : Ref sig .tc) (h : r ∉ wA ∧ r ∉ wB0 ∧ r ∉ wB1 ∧ r ∉ wC0 ∧ r ∉ wC1 ∧ r ∉ wC2 ∧ r ∉ wD ∧ r ∉ wE ∧ r ∉ wF0 ∧ r ∉ wF1 ∧ r ∉ wG0 ∧ r ∉ wG1 ∧ r ∉ wH0 ∧ r ∉ wH1 ∧ r ∉ wH2 ∧ r ∉ wI0 ∧ r ∉ wI1 ∧ r ∉ wJ0 ∧ r ∉ wJ1) :
    after (ops (F := F)) V (Proc.devRef .tc r) = V (Proc.devRef .tc r) := by
  obtain ⟨hA, hB0, hB1, hC0, hC1, hC2, hD, hE, hF0, hF1, hG0, hG1, hH0, hH1, hH2, hI0, hI1, hJ0, hJ1⟩ := h
  simp only [after_app]
  rw [keepJ1 _ r hJ1, keepJ0 _ r hJ0, keepI1 _ r hI1, keepI0 _ r hI0, keepH2 _ r hH2, keepH1 _ r hH1, keepH0 _ r hH0, keepG1 _ r hG1, keepG0 _ r hG0, keepF1 _ r hF1, keepF0 _ r hF0, keepE _ r hE, keepD _ r hD, keepC2 _ r hC2, keepC1 _ r hC1, keepC0 _ r hC0, keepB1 _ r hB1, keepB0 _ r hB0, keepA _ r hA]

def refOut (m : (ℓ : Loc nD τ sig) → Buf (Elt F) ℓ) (c : Dev nD) :=
  after (ops (F := F)) (launchContents m c) (Proc.devRef .tc main_v94)

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => by
      refine ⟨h c _, ?_⟩
      repeat' apply And.intro
      all_goals exact (h c _).trans (kept _ _ (by decide)))
    (run_seq scopedRefs_eq scopedSems_eq defs main (fun _ => ops) main_eq (fun _ => ops_sub) m ρ
      fun _ => List.forall_iff_forall_mem.mp ops_fresh)

end Cert.ReferenceIdeal.Hand

end
-- ==== Proof.LibPlainDot.lean ====
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat} {φ₁ φ₂ : FTy}

/-- Dimension numbers `[1] × [0]` with free axes `[0]`, `[1]` and no batch axes determine the record. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl

theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The contraction index has one coordinate `k`; the operands are read at `(p, k)` and `(k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibScatterGather2.lean ====
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

section Scatter

variable {N C M w : Nat}

theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update row `e`, column `j` lands on operand entry `(u, j)` exactly when index word `e` is `u`. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at `(u, j)`: the operand's entry plus the updates of the rows whose index word is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

section Gather

variable {α : Type} {N C M w : Nat}

/-- The gather of row `e` reads the table's row at index word `e`, clamped to the table. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

end Gather

end Cert.LibScatterGather2

end
-- ==== Proof.Ref.ValueOps.lean ====
import proofs.«416878_j12463995093413_1_alg».proof.Proof.Spec
import proofs.«416878_j12463995093413_1_alg».proof.Proof.LibIdealReal
import Idealize.ShloMosaic.PureOps.Ideal.Laws
import Idealize.ShloMosaic.Lib.Pipeline.Value
import Idealize.ShloMosaic.Lib.ValueLayout
import Idealize.ShloMosaic.Lib.IdealHost
import Idealize.ShloMosaic.Lib.Affine
import proofs.«416878_j12463995093413_1_alg».proof.Proof.LibPlainDot
import proofs.«416878_j12463995093413_1_alg».proof.Proof.LibScatterGather2

noncomputable section

namespace Cert.ReferenceIdeal.Hand

open Idealize.ShloMosaic Idealize.ShloMosaic.ValueIdx Cert.Gin
open scoped BigOperators

-- The coordinate a broadcast reads on an axis of extent d: 0 on a unit axis, which is then the only coordinate.
theorem fin_val {d : Nat} (j : Fin d) : j.val = if d = 1 then 0 else j.val := by
  have := j.isLt
  split <;> omega

theorem bcast_row {α : Type} {d : Nat} (h : (⟨1, ![d]⟩ : Shape).BroadcastsInDim ⟨2, ![1, d]⟩ (![1] : Fin 1 → Fin 2))
    (x : (⟨1, ![d]⟩ : Shape).Idx → α) (j : Fin d) :
    broadcastInDim ⟨2, ![1, d]⟩ ![1] h x (ix2 (0 : Fin 1) j) = x (ix1 j) :=
  broadcastInDim_apply _ h x _ (ix1 j) fun | ⟨0, _⟩ => fin_val j

theorem bcast_rows {α : Type} {n d : Nat} (h : (⟨2, ![1, d]⟩ : Shape).BroadcastsInDim ⟨2, ![n, d]⟩ (![0, 1] : Fin 2 → Fin 2))
    (x : (⟨2, ![1, d]⟩ : Shape).Idx → α) (i : Fin n) (j : Fin d) :
    broadcastInDim ⟨2, ![n, d]⟩ ![0, 1] h x (ix2 i j) = x (ix2 (0 : Fin 1) j) :=
  broadcastInDim_apply _ h x _ (ix2 (0 : Fin 1) j) fun | ⟨0, _⟩ => rfl | ⟨1, _⟩ => fin_val j

theorem bcast_col {α : Type} {m : Nat} (h : (⟨1, ![m]⟩ : Shape).BroadcastsInDim ⟨2, ![m, 1]⟩ (![0] : Fin 1 → Fin 2))
    (x : (⟨1, ![m]⟩ : Shape).Idx → α) (e : Fin m) :
    broadcastInDim ⟨2, ![m, 1]⟩ ![0] h x (ix2 e (0 : Fin 1)) = x (ix1 e) :=
  broadcastInDim_apply _ h x _ (ix1 e) fun | ⟨0, _⟩ => fin_val e

-- The sum over the rows from an initial scalar, at column j: the scalar plus the column's sum.
theorem reduce_cols {n d : Nat} (h' : (⟨2, ![n, d]⟩ : Shape).ReducesTo [0] ⟨1, ![d]⟩) (hu : 0 < (⟨0, ![]⟩ : Shape).numel)
    (x : FVec Ideal ⟨2, ![n, d]⟩ .f32) (init : (⟨0, ![]⟩ : Shape).Idx → EReal) (j : Fin d) :
    Host.reduceAdd (F := Ideal) x init h' hu (ix1 j) = init ix0 + ∑ i : Fin n, x (ix2 i j) := by
  rw [hostReduceAdd_apply, Ideal.hostReduceAdd_single h' ⟨h'.1, Nat.one_pos, h'.2⟩, eq_ix0 (Shape.Idx.first hu)]
  exact congrArg (init ix0 + ·) (Finset.sum_congr rfl fun k _ => congrArg x (funext fun | ⟨0, _⟩ => rfl | ⟨1, _⟩ => rfl))

section Blocks

variable {n k d : Nat} (h' : (⟨2, ![n, d]⟩ : Shape).ReducesTo [0] ⟨1, ![d]⟩) (hu : 0 < (⟨0, ![]⟩ : Shape).numel)
  (h1 : (⟨1, ![d]⟩ : Shape).BroadcastsInDim ⟨2, ![1, d]⟩ (![1] : Fin 1 → Fin 2))
  (hs1 : (⟨0, ![]⟩ : Shape).BroadcastsInDim ⟨2, ![1, d]⟩ (![] : Fin 0 → Fin 2))
  (h2 : (⟨2, ![1, d]⟩ : Shape).BroadcastsInDim ⟨2, ![n, d]⟩ (![0, 1] : Fin 2 → Fin 2))
  (hs : (⟨0, ![]⟩ : Shape).BroadcastsInDim ⟨1, ![d]⟩ (![] : Fin 0 → Fin 1))
  (h0 : (⟨0, ![]⟩ : Shape).BroadcastsInDim ⟨2, ![n, d]⟩ (![] : Fin 0 → Fin 2))
  {F : FTy → Type} [FloatOps F]

-- A vector as a one-row array, repeated down the rows.
def rowsT {α : Type} (b : (⟨1, ![d]⟩ : Shape).Idx → α) : (⟨2, ![n, d]⟩ : Shape).Idx → α :=
  broadcastInDim ⟨2, ![n, d]⟩ ![0, 1] h2 (broadcastInDim ⟨2, ![1, d]⟩ ![1] h1 b)

theorem rowsT_apply {α : Type} (b : (⟨1, ![d]⟩ : Shape).Idx → α) (i : Fin n) (j : Fin d) : rowsT h1 h2 b (ix2 i j) = b (ix1 j) := by
  unfold rowsT
  rw [bcast_rows, bcast_row]

def linT (D : DotDims ⟨2, ![n, k]⟩ ⟨2, ![k, d]⟩ ⟨2, ![n, d]⟩) (x : FVec F ⟨2, ![n, k]⟩ .f32) (w : FVec F ⟨2, ![k, d]⟩ .f32)
    (b : FVec F ⟨1, ![d]⟩ .f32) : FVec F ⟨2, ![n, d]⟩ .f32 :=
  addf (Host.dotGeneral D none x w) (rowsT h1 h2 b)

def meanT (bits : BitVec 32) (x : FVec F ⟨2, ![n, d]⟩ .f32) (init : FVec F ⟨0, ![]⟩ .f32) : FVec F ⟨1, ![d]⟩ .f32 :=
  Host.divf (Host.reduceAdd x init h' hu) (broadcastInDim ⟨1, ![d]⟩ ![] hs (constant ⟨0, ![]⟩ .f32 bits))

-- The deviations from the column means.
def devT (bits : BitVec 32) (x : FVec F ⟨2, ![n, d]⟩ .f32) : FVec F ⟨2, ![n, d]⟩ .f32 :=
  subf x (broadcastInDim ⟨2, ![n, d]⟩ ![0, 1] h2
    (Host.divf (broadcastInDim ⟨2, ![1, d]⟩ ![1] h1 (Host.reduceAdd (F := F) x (constant ⟨0, ![]⟩ .f32 0x00000000#32) h' hu))
      (broadcastInDim ⟨2, ![1, d]⟩ ![] hs1 (constant (F := F) ⟨0, ![]⟩ .f32 bits))))

def varT (bits : BitVec 32) (x : FVec F ⟨2, ![n, d]⟩ .f32) (c : IVec ⟨0, ![]⟩ 32) : FVec F ⟨1, ![d]⟩ .f32 :=
  select
    (broadcastInDim ⟨1, ![d]⟩ ![] hs
      (cmpf .ogt (subf (constant (F := F) ⟨0, ![]⟩ .f32 bits) (sitofp .f32 c)) (constant (F := F) ⟨0, ![]⟩ .f32 0x00000000#32)))
    (Host.divf
      (Host.reduceAdd (F := F) (mulf (devT h' hu h1 hs1 h2 bits x) (devT h' hu h1 hs1 h2 bits x)) (constant ⟨0, ![]⟩ .f32 0x00000000#32) h' hu)
      (broadcastInDim ⟨1, ![d]⟩ ![] hs (subf (constant (F := F) ⟨0, ![]⟩ .f32 bits) (sitofp .f32 c))))
    (broadcastInDim ⟨1, ![d]⟩ ![] hs (id (constant (F := F) ⟨0, ![]⟩ .f32 0x7FC00000#32)))

def bnT (ebits : BitVec 32) (x : FVec F ⟨2, ![n, d]⟩ .f32) (mu v g bb : FVec F ⟨1, ![d]⟩ .f32) : FVec F ⟨2, ![n, d]⟩ .f32 :=
  addf
    (mulf
      (mulf (subf x (rowsT h1 h2 mu))
        (rowsT h1 h2 (Host.rsqrt (addf v (broadcastInDim ⟨1, ![d]⟩ ![] hs (constant (F := F) ⟨0, ![]⟩ .f32 ebits))))))
      (rowsT h1 h2 g))
    (rowsT h1 h2 bb)

def reluT (x : FVec F ⟨2, ![n, d]⟩ .f32) : FVec F ⟨2, ![n, d]⟩ .f32 :=
  maximumf x (broadcastInDim ⟨2, ![n, d]⟩ ![] h0 (constant (F := F) ⟨0, ![]⟩ .f32 0x00000000#32))

theorem lin_apply (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![n, k]⟩ .f32) (w : FVec Ideal ⟨2, ![k, d]⟩ .f32) (b : FVec Ideal ⟨1, ![d]⟩ .f32) :
    mat (linT (F := Ideal) h1 h2 D x w b) = lin (mat x) (mat w) (vec b) := by
  funext i j
  show addf _ (rowsT h1 h2 b) (ix2 i j) = _
  rw [addf_apply, rowsT_apply]
  show FloatOps.dotGeneral D none .single x w (ix2 i j) + b (ix1 j) = _
  rw [Cert.LibPlainDot.dotGeneral_apply D hlc hrc hln hrn hlb hrb]
  rfl

theorem mean_apply (x : FVec Ideal ⟨2, ![n, d]⟩ .f32) (bits : BitVec 32) :
    vec (meanT (F := Ideal) h' hu hs bits x (constant ⟨0, ![]⟩ .f32 0x00000000#32)) = mean (Ideal.ofBits .f32 bits) (mat x) := by
  funext j
  show Ideal.div (Host.reduceAdd (F := Ideal) x (constant ⟨0, ![]⟩ .f32 0x00000000#32) h' hu (ix1 j)) _ = _
  rw [reduce_cols, broadcastInDim_scalar_apply, constant_apply, constant_apply, Ideal.ofBits_zero_f32, zero_add]
  rfl

-- With a zero correction word and a positive row count the guard holds, and what is left is the mean of the squared deviations.
theorem varT_apply (bits : BitVec 32) (x : FVec Ideal ⟨2, ![n, d]⟩ .f32) (c : IVec ⟨0, ![]⟩ 32)
    (hc : c ix0 = 0#32) (r : ℝ) (hr : 0 < r) (hbits : Ideal.ofBits .f32 bits = ((r : ℝ) : EReal)) :
    vec (varT (F := Ideal) h' hu h1 hs1 h2 hs bits x c) = varR (Ideal.ofBits .f32 bits) (mat x) := by
  funext j
  have hcnt : subf (constant (F := Ideal) ⟨0, ![]⟩ .f32 bits) (sitofp .f32 c) ix0 = Ideal.ofBits .f32 bits := by
    show Ideal.ofBits .f32 bits - (((c ix0).toInt : ℝ) : EReal) = _
    rw [hc]
    simp
  have hm (i : Fin n) : devT (F := Ideal) h' hu h1 hs1 h2 bits x (ix2 i j) = x (ix2 i j) - mean (Ideal.ofBits .f32 bits) (mat x) j := by
    unfold devT
    rw [subf_apply, bcast_rows]
    show _ - Ideal.div (broadcastInDim ⟨2, ![1, d]⟩ ![1] h1 (Host.reduceAdd (F := Ideal) x (constant ⟨0, ![]⟩ .f32 0x00000000#32) h' hu) (ix2 (0 : Fin 1) j)) _ = _
    rw [bcast_row, reduce_cols, broadcastInDim_scalar_apply, constant_apply, constant_apply, Ideal.ofBits_zero_f32, zero_add]
    rfl
  have hbit : FloatOps.cmpf (F := Ideal) (φ := .f32) .ogt (Ideal.ofBits .f32 bits) 0 = 1#1 := by
    show Ideal.cmp .ogt (Ideal.ofBits .f32 bits) 0 = 1#1
    rw [hbits]
    have : (0 : EReal) < ((r : ℝ) : EReal) := by exact_mod_cast hr
    simp [Ideal.cmp, this]
  show varT (F := Ideal) h' hu h1 hs1 h2 hs bits x c (ix1 j) = _
  unfold varT
  rw [select_apply, broadcastInDim_scalar_apply, broadcastInDim_scalar_apply, cmpf_apply, hcnt, constant_apply, Ideal.ofBits_zero_f32, hbit, select_one]
  show Ideal.div (Host.reduceAdd (F := Ideal) _ (constant ⟨0, ![]⟩ .f32 0x00000000#32) h' hu (ix1 j)) _ = _
  rw [reduce_cols, broadcastInDim_scalar_apply, hcnt, constant_apply, Ideal.ofBits_zero_f32, zero_add]
  refine congrArg (fun s => Ideal.div s (Ideal.ofBits .f32 bits)) (Finset.sum_congr rfl fun i _ => ?_)
  rw [mulf_apply, hm]
  rfl

theorem reluT_bnT_apply (x : FVec Ideal ⟨2, ![n, d]⟩ .f32) (mu v g bb : FVec Ideal ⟨1, ![d]⟩ .f32) :
    mat (reluT (F := Ideal) h0 (bnT h1 h2 hs 0x3727C5AC#32 x mu v g bb)) = bnrelu (mat x) (vec mu) (vec v) (vec g) (vec bb) := by
  funext i j
  show reluT (F := Ideal) h0 (bnT h1 h2 hs 0x3727C5AC#32 x mu v g bb) (ix2 i j) = _
  unfold reluT bnT
  rw [maximumf_apply, broadcastInDim_scalar_apply, constant_apply, Ideal.ofBits_zero_f32, addf_apply, mulf_apply, mulf_apply,
    subf_apply, rowsT_apply, rowsT_apply, rowsT_apply, rowsT_apply]
  show max (_ * Ideal.rsqrt (addf v (broadcastInDim ⟨1, ![d]⟩ ![] hs (constant (F := Ideal) ⟨0, ![]⟩ .f32 0x3727C5AC#32)) (ix1 j)) * _ + _) 0 = _
  rw [addf_apply, broadcastInDim_scalar_apply, constant_apply]
  rfl

end Blocks

-- Row a of a two-row array of words, cut out and flattened, reads the array's row.
theorem row_apply {α : Type} {m : Nat} (a : Fin 2) (hsl : (⟨2, ![2, m]⟩ : Shape).Slices ![a.val, 0] ⟨2, ![1, m]⟩)
    (hc : (⟨2, ![1, m]⟩ : Shape).ShapeCasts ⟨1, ![m]⟩) (x : (⟨2, ![2, m]⟩ : Shape).Idx → α) (e : Fin m) :
    shapeCast ⟨1, ![m]⟩ (extractStridedSlice ⟨2, ![1, m]⟩ ![a.val, 0] x hsl) hc (ix1 e) = x (ix2 a e) :=
  (shapeCast_1a_a_apply _ hc e).trans (slice2_axis0_apply a.val x hsl 0 e a rfl)

section ScatterGather

variable {N M d : Nat} (h0 : (⟨0, ![]⟩ : Shape).BroadcastsInDim ⟨2, ![N, d]⟩ (![] : Fin 0 → Fin 2))
  (hsI : (⟨0, ![]⟩ : Shape).BroadcastsInDim ⟨1, ![M]⟩ (![] : Fin 0 → Fin 1))
  (hcol : (⟨1, ![M]⟩ : Shape).BroadcastsInDim ⟨2, ![M, 1]⟩ (![0] : Fin 1 → Fin 2))
  {F : FTy → Type} [FloatOps F]

-- The words of an index vector read as signed numbers, and as rows of the node table.
def dstOf (idx : IVec ⟨1, ![M]⟩ 32) (e : Fin M) : ℤ := (idx (ix1 e)).toInt
def srcOf (idx : IVec ⟨1, ![M]⟩ 32) (e : Fin M) : Fin NN := srcIdx (idx (ix1 e))

def scatT (D : ScatterDims ⟨2, ![N, d]⟩ ⟨2, ![M, 1]⟩ ⟨2, ![M, d]⟩) (idx : IVec ⟨1, ![M]⟩ 32) (upd : FVec F ⟨2, ![M, d]⟩ .f32)
    (h : FVec F ⟨2, ![N, d]⟩ .f32) : FVec F ⟨2, ![N, d]⟩ .f32 :=
  addf h (Host.scatterAdd (F := F) D (broadcastInDim ⟨2, ![N, d]⟩ ![] h0 (constant (F := F) ⟨0, ![]⟩ .f32 0x00000000#32))
    (broadcastInDim ⟨2, ![M, 1]⟩ ![0] hcol idx) upd)

def gathT (G : GatherDims ⟨2, ![N, d]⟩ ⟨2, ![M, 1]⟩ ⟨2, ![M, d]⟩) (len : BitVec 32) (src : IVec ⟨1, ![M]⟩ 32)
    (x : FVec F ⟨2, ![N, d]⟩ .f32) : FVec F ⟨2, ![M, d]⟩ .f32 :=
  Host.gather G x (broadcastInDim ⟨2, ![M, 1]⟩ ![0] hcol
    (select (cmpi .slt src (broadcastInDim ⟨1, ![M]⟩ ![] hsI (constantI ⟨0, ![]⟩ 32 0#32)))
      (addi src (broadcastInDim ⟨1, ![M]⟩ ![] hsI (constantI ⟨0, ![]⟩ 32 len))) src))

theorem scatT_apply (D : ScatterDims ⟨2, ![N, d]⟩ ⟨2, ![M, 1]⟩ ⟨2, ![M, d]⟩)
    (huw : D.updateWindowDims = [1]) (hiw : D.insertedWindowDims = [0]) (hsd : D.scatterDimsToOperandDims = [0])
    (hivd : D.indexVectorDim = 1) (idx : IVec ⟨1, ![M]⟩ 32) (upd : FVec Ideal ⟨2, ![M, d]⟩ .f32) (h : FVec Ideal ⟨2, ![N, d]⟩ .f32) :
    mat (scatT (F := Ideal) h0 hcol D idx upd h) = fun r j => mat h r j + scat (dstOf idx) (mat upd) r j := by
  funext r j
  show addf h _ (ix2 r j) = _
  rw [addf_apply, Cert.LibScatterGather2.scatterAdd_apply D huw hiw hsd hivd, broadcastInDim_scalar_apply, constant_apply,
    Ideal.ofBits_zero_f32, zero_add]
  refine congrArg (h (ix2 r j) + ·) (Finset.sum_congr (Finset.filter_congr fun e _ => ?_) fun _ _ => rfl)
  rw [bcast_col]
  rfl

theorem gathT_apply (G : GatherDims ⟨2, ![50000, d]⟩ ⟨2, ![M, 1]⟩ ⟨2, ![M, d]⟩)
    (hoff : G.offsetDims = [1]) (hcoll : G.collapsedSliceDims = [0]) (hob : G.operandBatchingDims = [])
    (hsim : G.startIndexMap = [0]) (hivd : G.indexVectorDim = 1) (src : IVec ⟨1, ![M]⟩ 32) (x : FVec Ideal ⟨2, ![50000, d]⟩ .f32) :
    mat (gathT (F := Ideal) hsI hcol G 50000#32 src x) = fun e j => mat x (srcOf src e) j := by
  funext e j
  show Host.gather G x _ (ix2 e j) = _
  rw [Cert.LibScatterGather2.gather_apply_clamp G hoff hcoll hob hsim hivd x _ e j (by decide)]
  refine congrArg (fun r => x (ix2 r j)) (Fin.ext ?_)
  show min (BitVec.toInt _).toNat (50000 - 1) = min (wrapWord (src (ix1 e))).toInt.toNat 49999
  rw [bcast_col, select_apply]
  refine congrArg (fun w : BitVec 32 => min w.toInt.toNat 49999) ?_
  show Scalar.select (IntOp.cmpi .slt (src (ix1 e)) 0#32) (src (ix1 e) + 50000#32) (src (ix1 e)) = wrapWord (src (ix1 e))
  unfold wrapWord Scalar.select
  have h0 : (0#32 : BitVec 32).toInt = 0 := by decide
  by_cases hneg : (src (ix1 e)).toInt < 0
  · rw [if_pos hneg]
    exact if_pos (IntOp.cmpi_slt.mpr (by rw [h0]; exact hneg))
  · rw [if_neg hneg]
    exact if_neg fun hh => hneg (by have := IntOp.cmpi_slt.mp hh; rwa [h0] at this)

end ScatterGather

theorem ofBits_600000 : Ideal.ofBits .f32 0x49127C00#32 = ((600000 : ℝ) : EReal) := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

end Cert.ReferenceIdeal.Hand

end
-- ==== Proof.Ref.ValuePieces.lean ====
import proofs.«416878_j12463995093413_1_alg».proof.Proof.Ref.Ops
import proofs.«416878_j12463995093413_1_alg».proof.Proof.Ref.ValueOps

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F] (V : Valuation τ sig (Elt F))

theorem A_v1 : after opsA V main_v1 = shapeCast S600000 (extractStridedSlice S1x600000 ![0, 0] (V main_arg1) slices_S2x600000_S1x600000_0_0) shapeCasts_S1x600000_S600000 := by
  after_results_simp; rfl

theorem A_v3 : after opsA V main_v3 = shapeCast S600000 (extractStridedSlice S1x600000 ![1, 0] (V main_arg1) slices_S2x600000_S1x600000_1_0) shapeCasts_S1x600000_S600000 := by
  after_results_simp; rfl

theorem A_v7 : after opsA V main_v7 = linT bcast_S128_S1x128_1 bcast_S1x128_S600000x128_0_1 dot_S600000x16_S16x128_S600000x128_1_0_0_1_n_n (V main_arg2) (V main_arg3) (V main_arg4) := by
  after_results_simp; rfl

theorem A_v10 : after opsA V main_v10 = meanT reducesTo_S600000x128_S128_d0 h_S_ bcast_S_S128 0x49127C00#32 (after opsA V main_v7) (constant S_ .f32 0x00000000#32) := by
  rw [A_v7]; after_results_simp; rfl

theorem B0_c : after opsB0 V main_c = constantI S_ 32 0#32 := by
  after_results_simp

theorem B1_v11 : after opsB1 V main_v11 = varT reducesTo_S600000x128_S128_d0 h_S_ bcast_S128_S1x128_1 bcast_S_S1x128 bcast_S1x128_S600000x128_0_1 bcast_S_S128 0x49127C00#32 (V main_v7) (V main_c) := by
  after_results_simp; rfl

theorem C0_v26 : after opsC0 V main_v26 = bnT bcast_S128_S1x128_1 bcast_S1x128_S600000x128_0_1 bcast_S_S128 0x3727C5AC#32 (V main_v7) (V main_v10) (V main_v11) (V main_arg5) (V main_arg6) := by
  after_results_simp; rfl

theorem C1_v27 : after opsC1 V main_v27 = reluT bcast_S_S600000x128 (V main_v26) := by
  after_results_simp; rfl

theorem C2_v31 : after opsC2 V main_v31 = linT bcast_S128_S1x128_1 bcast_S1x128_S600000x128_0_1 dot_S600000x128_S128x128_S600000x128_1_0_0_1_n_n (V main_v27) (V main_arg7) (V main_arg8) := by
  after_results_simp; rfl

theorem D_v35 : after opsD V main_v35 = scatT bcast_S_S50000x128 bcast_S600000_S600000x1_0 scatter_S50000x128_S600000x1_S600000x128_1_0_0_1 (V main_v3) (V main_v31) (V main_arg0) := by
  after_results_simp; rfl

theorem E_v46 : after opsE V main_v46 = scatT bcast_S_S50000x128 bcast_S600000_S600000x1_0 scatter_S50000x128_S600000x1_S600000x128_1_0_0_1 (V main_v3) (gathT bcast_S_S600000 bcast_S600000_S600000x1_0 gather_S50000x128_S600000x1_S600000x128_1_0_n_n_0_1_1128 50000#32 (V main_v1) (V main_v35)) (V main_v35) := by
  after_results_simp; rfl

theorem F0_v50 : after opsF0 V main_v50 = linT bcast_S128_S1x128_1 bcast_S1x128_S50000x128_0_1 dot_S50000x128_S128x128_S50000x128_1_0_0_1_n_n (V main_v46) (V main_arg9) (V main_arg10) := by
  after_results_simp; rfl

theorem F0_cst6 : after opsF0 V main_cst_6 = constant S_ .f32 0x00000000#32 := by
  after_results_simp

theorem F1_v53 : after opsF1 V main_v53 = meanT reducesTo_S50000x128_S128_d0 h_S_ bcast_S_S128 0x47435000#32 (V main_v50) (V main_cst_6) := by
  after_results_simp; rfl

theorem G0_c : after opsG0 V main_c_8 = constantI S_ 32 0#32 := by
  after_results_simp

theorem G1_v54 : after opsG1 V main_v54 = varT reducesTo_S50000x128_S128_d0 h_S_ bcast_S128_S1x128_1 bcast_S_S1x128 bcast_S1x128_S50000x128_0_1 bcast_S_S128 0x47435000#32 (V main_v50) (V main_c_8) := by
  after_results_simp; rfl

theorem H0_v69 : after opsH0 V main_v69 = bnT bcast_S128_S1x128_1 bcast_S1x128_S50000x128_0_1 bcast_S_S128 0x3727C5AC#32 (V main_v50) (V main_v53) (V main_v54) (V main_arg11) (V main_arg12) := by
  after_results_simp; rfl

theorem H1_v70 : after opsH1 V main_v70 = reluT bcast_S_S50000x128 (V main_v69) := by
  after_results_simp; rfl

theorem H2_v74 : after opsH2 V main_v74 = linT bcast_S128_S1x128_1 bcast_S1x128_S50000x128_0_1 dot_S50000x128_S128x128_S50000x128_1_0_0_1_n_n (V main_v70) (V main_arg13) (V main_arg14) := by
  after_results_simp; rfl

theorem H2_v77 : after opsH2 V main_v77 = meanT reducesTo_S50000x128_S128_d0 h_S_ bcast_S_S128 0x47435000#32 (after opsH2 V main_v74) (constant S_ .f32 0x00000000#32) := by
  rw [H2_v74]; after_results_simp; rfl

theorem I0_c : after opsI0 V main_c_12 = constantI S_ 32 0#32 := by
  after_results_simp

theorem I1_v78 : after opsI1 V main_v78 = varT reducesTo_S50000x128_S128_d0 h_S_ bcast_S128_S1x128_1 bcast_S_S1x128 bcast_S1x128_S50000x128_0_1 bcast_S_S128 0x47435000#32 (V main_v74) (V main_c_12) := by
  after_results_simp; rfl

theorem J0_v93 : after opsJ0 V main_v93 = bnT bcast_S128_S1x128_1 bcast_S1x128_S50000x128_0_1 bcast_S_S128 0x3727C5AC#32 (V main_v74) (V main_v77) (V main_v78) (V main_arg15) (V main_arg16) := by
  after_results_simp; rfl

theorem J1_v94 : after opsJ1 V main_v94 = reluT bcast_S_S50000x128 (V main_v93) := by
  after_results_simp; rfl

end Cert.ReferenceIdeal.Hand

end
-- ==== Proof.Ref.Value.lean ====
import proofs.«416878_j12463995093413_1_alg».proof.Proof.Ref.Keep
import proofs.«416878_j12463995093413_1_alg».proof.Proof.Ref.ValuePieces
import proofs.«416878_j12463995093413_1_alg».proof.Proof.Ref.Run

noncomputable section

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx Cert.Gin

-- A piece of the line with the references it writes: every other reference keeps its contents over it.
structure Piece where
  l : List (HloOp τ sig (Elt Ideal))
  w : List (Ref sig .tc)
  keep : ∀ V r, r ∉ w → after l V (Proc.devRef .tc r) = V (Proc.devRef .tc r)

def pc : ℕ → Piece
  | 0 => ⟨opsA, wA, keepA⟩
  | 1 => ⟨opsB0, wB0, keepB0⟩
  | 2 => ⟨opsB1, wB1, keepB1⟩
  | 3 => ⟨opsC0, wC0, keepC0⟩
  | 4 => ⟨opsC1, wC1, keepC1⟩
  | 5 => ⟨opsC2, wC2, keepC2⟩
  | 6 => ⟨opsD, wD, keepD⟩
  | 7 => ⟨opsE, wE, keepE⟩
  | 8 => ⟨opsF0, wF0, keepF0⟩
  | 9 => ⟨opsF1, wF1, keepF1⟩
  | 10 => ⟨opsG0, wG0, keepG0⟩
  | 11 => ⟨opsG1, wG1, keepG1⟩
  | 12 => ⟨opsH0, wH0, keepH0⟩
  | 13 => ⟨opsH1, wH1, keepH1⟩
  | 14 => ⟨opsH2, wH2, keepH2⟩
  | 15 => ⟨opsI0, wI0, keepI0⟩
  | 16 => ⟨opsI1, wI1, keepI1⟩
  | 17 => ⟨opsJ0, wJ0, keepJ0⟩
  | 18 => ⟨opsJ1, wJ1, keepJ1⟩
  | _ => ⟨[], [], fun _ _ _ => rfl⟩

variable (W : Valuation τ sig (Elt Ideal))

-- The contents after the first n pieces.
def st : ℕ → Valuation τ sig (Elt Ideal)
  | 0 => W
  | n + 1 => after (pc n).l (st n)

theorem st_at (n : ℕ) {r : DevRef τ sig} {x} (h : after (pc n).l (st W n) r = x) : st W (n + 1) r = x := h

-- A reference that none of the pieces m, …, n - 1 writes holds after n pieces what it held after m.
theorem st_keep (r : Ref sig .tc) (m n : ℕ) (h : m ≤ n ∧ ∀ i, m ≤ i → i < n → r ∉ (pc i).w) :
    st W n (Proc.devRef .tc r) = st W m (Proc.devRef .tc r) := by
  obtain ⟨hmn, h⟩ := h
  induction n, hmn using Nat.le_induction with
  | base => rfl
  | succ n hmn ih =>
    exact ((pc n).keep _ r (h n hmn n.lt_succ_self)).trans (ih fun i hi hin => h i hi (Nat.lt_succ_of_lt hin))

def inpW : Inp :=
  mkInp (W main_arg0) (W main_arg1) (W main_arg2) (W main_arg3) (W main_arg4) (W main_arg5) (W main_arg6) (W main_arg7) (W main_arg8)
    (W main_arg9) (W main_arg10) (W main_arg11) (W main_arg12) (W main_arg13) (W main_arg14) (W main_arg15) (W main_arg16)

def vr0 : Row DD := varR cE (x1 (inpW W))
def vr1 : Row DD := varR cN (y1 (inpW W) (vr0 W))
def vr2 : Row DD := varR cN (y2 (inpW W) (vr0 W) (vr1 W))

theorem fA_src : srcOf (st W 1 main_v1) = (inpW W).src := by
  funext e
  rw [st_at W 0 (A_v1 _)]
  exact congrArg srcIdx (row_apply 0 _ _ _ e)

theorem fA_dst : dstOf (st W 1 main_v3) = (inpW W).dst := by
  funext e
  rw [st_at W 0 (A_v3 _)]
  exact congrArg BitVec.toInt (row_apply 1 _ _ _ e)

theorem fA_x1 : mat (st W 1 main_v7) = x1 (inpW W) := by
  rw [st_at W 0 (A_v7 _)]
  exact lin_apply _ _ dot_S600000x16_S16x128_S600000x128_1_0_0_1_n_n rfl rfl rfl rfl rfl rfl _ _ _

theorem fA_mean : vec (st W 1 main_v10) = mean cE (x1 (inpW W)) := by
  rw [st_at W 0 (A_v10 _), mean_apply]
  exact congrArg (mean cE) (fA_x1 W)

theorem fB1_var : vec (st W 3 main_v11) = vr0 W := by
  rw [st_at W 2 (B1_v11 _), varT_apply _ _ _ _ _ _ _ _ _ (congrFun (st_at W 1 (B0_c _)) ix0) 600000 (by norm_num) ofBits_600000,
    st_keep W main_v7 1 2 (by decide), fA_x1]
  rfl

theorem fC1 : mat (st W 5 main_v27) = bnrelu (x1 (inpW W)) (mean cE (x1 (inpW W))) (vr0 W) (inpW W).g1 (inpW W).bb1 := by
  rw [st_at W 4 (C1_v27 _), st_at W 3 (C0_v26 _), reluT_bnT_apply, st_keep W main_v7 1 3 (by decide), fA_x1,
    st_keep W main_v10 1 3 (by decide), fA_mean, fB1_var, st_keep W main_arg5 0 3 (by decide), st_keep W main_arg6 0 3 (by decide)]
  rfl

theorem fC2_emb : mat (st W 6 main_v31) = emb (inpW W) (vr0 W) := by
  rw [st_at W 5 (C2_v31 _), lin_apply _ _ dot_S600000x128_S128x128_S600000x128_1_0_0_1_n_n rfl rfl rfl rfl rfl rfl, fC1, st_keep W main_arg7 0 5 (by decide),
    st_keep W main_arg8 0 5 (by decide)]
  rfl

theorem fD_hnew : mat (st W 7 main_v35) = hnew (inpW W) (vr0 W) := by
  rw [st_at W 6 (D_v35 _), scatT_apply _ _ scatter_S50000x128_S600000x1_S600000x128_1_0_0_1 rfl rfl rfl rfl, st_keep W main_v3 1 6 (by decide), fA_dst, fC2_emb,
    st_keep W main_arg0 0 6 (by decide)]
  rfl

theorem fE_zin : mat (st W 8 main_v46) = zin (inpW W) (vr0 W) := by
  rw [st_at W 7 (E_v46 _), scatT_apply _ _ scatter_S50000x128_S600000x1_S600000x128_1_0_0_1 rfl rfl rfl rfl, gathT_apply _ _ gather_S50000x128_S600000x1_S600000x128_1_0_n_n_0_1_1128 rfl rfl rfl rfl rfl,
    st_keep W main_v3 1 7 (by decide), fA_dst, fD_hnew, st_keep W main_v1 1 7 (by decide), fA_src]
  rfl

theorem fF0_y1 : mat (st W 9 main_v50) = y1 (inpW W) (vr0 W) := by
  rw [st_at W 8 (F0_v50 _), lin_apply _ _ dot_S50000x128_S128x128_S50000x128_1_0_0_1_n_n rfl rfl rfl rfl rfl rfl, fE_zin, st_keep W main_arg9 0 8 (by decide),
    st_keep W main_arg10 0 8 (by decide)]
  rfl

theorem fF1_mean : vec (st W 10 main_v53) = mean cN (y1 (inpW W) (vr0 W)) := by
  rw [st_at W 9 (F1_v53 _), st_at W 8 (F0_cst6 _), mean_apply, fF0_y1]
  rfl

theorem fG1_var : vec (st W 12 main_v54) = vr1 W := by
  rw [st_at W 11 (G1_v54 _), varT_apply _ _ _ _ _ _ _ _ _ (congrFun (st_at W 10 (G0_c _)) ix0) 50000 (by norm_num) ofBits_50000,
    st_keep W main_v50 9 11 (by decide), fF0_y1]
  rfl

theorem fH1 : mat (st W 14 main_v70) = r1 (inpW W) (vr0 W) (vr1 W) := by
  rw [st_at W 13 (H1_v70 _), st_at W 12 (H0_v69 _), reluT_bnT_apply, st_keep W main_v50 9 12 (by decide), fF0_y1,
    st_keep W main_v53 10 12 (by decide), fF1_mean, fG1_var, st_keep W main_arg11 0 12 (by decide),
    st_keep W main_arg12 0 12 (by decide)]
  rfl

theorem fH2_y2 : mat (st W 15 main_v74) = y2 (inpW W) (vr0 W) (vr1 W) := by
  rw [st_at W 14 (H2_v74 _), lin_apply _ _ dot_S50000x128_S128x128_S50000x128_1_0_0_1_n_n rfl rfl rfl rfl rfl rfl, fH1, st_keep W main_arg13 0 14 (by decide),
    st_keep W main_arg14 0 14 (by decide)]
  rfl

theorem fH2_mean : vec (st W 15 main_v77) = mean cN (y2 (inpW W) (vr0 W) (vr1 W)) := by
  rw [st_at W 14 (H2_v77 _), mean_apply]
  exact congrArg (mean cN) (fH2_y2 W)

theorem fI1_var : vec (st W 17 main_v78) = vr2 W := by
  rw [st_at W 16 (I1_v78 _), varT_apply _ _ _ _ _ _ _ _ _ (congrFun (st_at W 15 (I0_c _)) ix0) 50000 (by norm_num) ofBits_50000,
    st_keep W main_v74 15 16 (by decide), fH2_y2]
  rfl

theorem fJ1 : mat (st W 19 main_v94) = outR (inpW W) := by
  rw [st_at W 18 (J1_v94 _), st_at W 17 (J0_v93 _), reluT_bnT_apply, st_keep W main_v74 15 17 (by decide), fH2_y2,
    st_keep W main_v77 15 17 (by decide), fH2_mean, fI1_var, st_keep W main_arg15 0 17 (by decide),
    st_keep W main_arg16 0 17 (by decide)]
  rfl

def inpR (m : (ℓ : Loc nD τ sig) → Buf (Elt Ideal) ℓ) (c : Dev nD) : Cert.Gin.Inp :=
  Cert.Gin.mkInp (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))

-- The whole line is its nineteen pieces in order, so its result is the last piece's.
theorem ref_value (m : (ℓ : Loc nD τ sig) → Buf (Elt Ideal) ℓ) (c : Dev nD) (r : Fin 50000) (j : Fin 128) :
    refOut (F := Ideal) m c (ix2 r j) = Cert.Gin.outR (inpR m c) r j := by
  unfold refOut
  simp only [ops, opsB, opsC, opsF, opsG, opsH, opsI, opsJ, after_app]
  exact congrFun (congrFun (fJ1 (launchContents m c)) r) j

end Cert.ReferenceIdeal.Hand

end
-- ==== Proof.LibBroadcast.lean ====
import Idealize.ShloMosaic.Lib.Pipeline.Value
import Idealize.ShloMosaic.Lib.ValueIdx

namespace Cert.Broadcast

open Idealize.ShloMosaic Idealize.ShloMosaic.ValueIdx

/-- A vector laid along the rows of a matrix, constant along each row, reads at `(p, q)` the vector at `p`. -/
theorem brows_apply {α : Type} {n m : ℕ} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  refine broadcastInDim_apply _ h v _ (ix1 p) fun a => ?_
  match a with
  | ⟨0, _⟩ =>
    show p.val = if n = 1 then 0 else p.val
    split
    · have := p.isLt; omega
    · rfl

end Cert.Broadcast
-- ==== Proof.KIdeal.HostVal.lean ====
import proofs.«416878_j12463995093413_1_alg».proof.Proof.Gen.KernelIdeal.Regions
import proofs.«416878_j12463995093413_1_alg».proof.Proof.Spec
import proofs.«416878_j12463995093413_1_alg».proof.Proof.LibScatterGather2
import proofs.«416878_j12463995093413_1_alg».proof.Proof.LibBroadcast
import Idealize.ShloMosaic.Lib.StableHlo.Run
import Idealize.ShloMosaic.Lib.ValueLayout
import Idealize.ShloMosaic.Lib.IdealHost

noncomputable section

namespace Cert.KernelIdeal.Hand

open Idealize.ShloMosaic Idealize.ShloMosaic.TcCoe Idealize.ShloMosaic.ValueIdx
open Cert.KernelIdeal Cert.KernelIdeal.Gen
open Cert.Gin (cE cN mat scat)
open Cert.Broadcast (brows_apply)

variable (W : Valuation τ sig (Elt Ideal))

theorem host0_v1 (e : Fin 600000) :
    StableHlo.after hostOps0 W main_v1 (ix1 e) = W main_arg1 (ix2 (0 : Fin 2) e) := by
  after_results
  refine (shapeCast_1a_a_apply _ shapeCasts_S1x600000_S600000 e).trans ?_
  exact slice2_axis0_apply 0 (W main_arg1) slices_S2x600000_S1x600000_0_0 (0 : Fin 1) e (0 : Fin 2) rfl

theorem host0_v3 (e : Fin 600000) :
    StableHlo.after hostOps0 W main_v3 (ix1 e) = W main_arg1 (ix2 (1 : Fin 2) e) := by
  after_results
  refine (shapeCast_1a_a_apply _ shapeCasts_S1x600000_S600000 e).trans ?_
  exact slice2_axis0_apply 1 (W main_arg1) slices_S2x600000_S1x600000_1_0 (0 : Fin 1) e (1 : Fin 2) rfl

theorem host1_v16 (j : Fin 128) :
    StableHlo.after hostOps1 W main_v16 (ix2 (0 : Fin 1) j)
      = Ideal.div (W main_v14_0 (ix2 (0 : Fin 1) j)) cE := by
  after_results
  rfl

theorem host1_v20 (j : Fin 128) :
    StableHlo.after hostOps1 W main_v20 (ix2 (0 : Fin 1) j)
      = Ideal.div (W main_v14_1 (ix2 (0 : Fin 1) j)) cE
        - Ideal.div (W main_v14_0 (ix2 (0 : Fin 1) j)) cE * Ideal.div (W main_v14_0 (ix2 (0 : Fin 1) j)) cE := by
  after_results
  rfl

theorem host3_v32 (j : Fin 128) :
    StableHlo.after hostOps3 W main_v32 (ix2 (0 : Fin 1) j)
      = Ideal.div (W main_v30_0 (ix2 (0 : Fin 1) j)) cN := by
  after_results
  rfl

theorem host3_v36 (j : Fin 128) :
    StableHlo.after hostOps3 W main_v36 (ix2 (0 : Fin 1) j)
      = Ideal.div (W main_v30_1 (ix2 (0 : Fin 1) j)) cN
        - Ideal.div (W main_v30_0 (ix2 (0 : Fin 1) j)) cN * Ideal.div (W main_v30_0 (ix2 (0 : Fin 1) j)) cN := by
  after_results
  rfl

theorem host4_v39 (j : Fin 128) :
    StableHlo.after hostOps4 W main_v39 (ix2 (0 : Fin 1) j)
      = Ideal.div (W main_v37_0 (ix2 (0 : Fin 1) j)) cN := by
  after_results
  rfl

theorem host4_v43 (j : Fin 128) :
    StableHlo.after hostOps4 W main_v43 (ix2 (0 : Fin 1) j)
      = Ideal.div (W main_v37_1 (ix2 (0 : Fin 1) j)) cN
        - Ideal.div (W main_v37_0 (ix2 (0 : Fin 1) j)) cN * Ideal.div (W main_v37_0 (ix2 (0 : Fin 1) j)) cN := by
  after_results
  rfl

/-- Scatter-adding rows into zeros sums, at `(u, j)`, column `j` of the rows sent to `u`. -/
theorem scatter_zero_apply {N C M : ℕ} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (hz : (⟨0, ![]⟩ : Shape).BroadcastsInDim ⟨2, ![N, C]⟩ ![])
    (hc : (⟨1, ![M]⟩ : Shape).BroadcastsInDim ⟨2, ![M, 1]⟩ ![0])
    (idx : IVec ⟨1, ![M]⟩ 32) (upd : FVec Ideal ⟨2, ![M, C]⟩ .f32) (u : Fin N) (j : Fin C) :
    Host.scatterAdd (F := Ideal) d (broadcastInDim ⟨2, ![N, C]⟩ ![] hz (constant (F := Ideal) ⟨0, ![]⟩ .f32 0x00000000#32))
        (broadcastInDim ⟨2, ![M, 1]⟩ ![0] hc idx) upd (ix2 u j)
      = scat (fun e : Fin M => (idx (ix1 e)).toInt) (mat upd) u j := by
  rw [Cert.LibScatterGather2.scatterAdd_apply d huw hiw hsd hivd, broadcastInDim_scalar_apply, constant_apply,
    Ideal.ofBits_zero_f32, zero_add]
  exact Finset.sum_congr (Finset.filter_congr fun e _ => by rw [brows_apply]) fun _ _ => rfl

theorem host2_v25 (r : Fin 50000) (j : Fin 128) :
    StableHlo.after hostOps2 W main_v25 (ix2 r j)
      = mat (W main_arg0) r j + scat (fun e : Fin 600000 => (W main_v3 (ix1 e)).toInt) (mat (W main_v21)) r j := by
  after_results
  rw [addf_apply]
  exact congrArg _ (scatter_zero_apply scatter_S50000x128_S600000x1_S600000x128_1_0_0_1 rfl rfl rfl rfl _ _ _ _ r j)

theorem host22_v29 (r : Fin 50000) (j : Fin 128) :
    StableHlo.after hostOps2_2 W main_v29 (ix2 r j)
      = scat (fun e : Fin 600000 => (W main_v3 (ix1 e)).toInt) (mat (W main_v26)) r j := by
  after_results
  exact scatter_zero_apply scatter_S50000x128_S600000x1_S600000x128_1_0_0_1 rfl rfl rfl rfl _ _ _ _ r j

end Cert.KernelIdeal.Hand

end
-- ==== Proof.KIdeal.HostTake.lean ====
import proofs.«416878_j12463995093413_1_alg».proof.Proof.Gen.KernelIdeal.Regions
import proofs.«416878_j12463995093413_1_alg».proof.Proof.Spec
import proofs.«416878_j12463995093413_1_alg».proof.Proof.LibScatterGather2
import proofs.«416878_j12463995093413_1_alg».proof.Proof.LibBroadcast
import Idealize.ShloMosaic.Lib.StableHlo.Run
import Idealize.ShloMosaic.Lib.Pipeline.Value
import Idealize.ShloMosaic.Lib.Affine
import Idealize.ShloMosaic.PureOps.Reduce

noncomputable section

namespace Cert.KernelIdeal.Hand

open Idealize.ShloMosaic Idealize.ShloMosaic.TcCoe Idealize.ShloMosaic.ValueIdx
open Cert.KernelIdeal Cert.KernelIdeal.Gen
open Cert.Gin (wrapWord srcIdx mat)
open Cert.Broadcast (brows_apply)

/-- All conjuncts 1 and the start 1: the conjunction is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize (((List.finRange s.numel).map s.rowMajor.symm).filter fun i => h.drop i = j) = l
  induction l with
  | nil => rfl
  | cons a l ih => rw [List.foldl_cons, hx a]; exact ih

/-- Choosing `x + 50000` for negative `x` is wrapping `x` once. -/
theorem select_wrap (x : BitVec 32) :
    Scalar.select (IntOp.cmpi .slt x 0#32) (IntOp.addi x 50000#32) x = wrapWord x := by
  unfold wrapWord Scalar.select
  by_cases h : x.toInt < 0
  · rw [if_pos h]; exact if_pos (IntOp.cmpi_slt.mpr h)
  · rw [if_neg h]; exact if_neg fun hh => h (IntOp.cmpi_slt.mp hh)

variable (v : S600000.Idx → BitVec 32)

/-- Every source word wrapped once, as a column. -/
def takeIdx : S600000x1.Idx → BitVec 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

/-- Which rows have their wrapped word inside `[0, 49999]`. -/
def takeMask : S600000.Idx → BitVec 1 :=
  Host.reduce IntOp.andi
    (andi (cmpi .sge (takeIdx v) (broadcastInDim S600000x1 ![] bcast_S_S600000x1 (constantI S_ 32 0#32)))
      (cmpi .sle (takeIdx v) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The table's rows at those words, or a fill value where the mask is clear. -/
def takeVal (tab : S50000x128.Idx → EReal) : S600000x128.Idx → EReal :=
  select (broadcastInDim S600000x128 ![0] bcast_S600000_S600000x128_0 (takeMask v))
    (Host.gather gather_S50000x128_S600000x1_S600000x128_1_0_n_n_0_1_1128 tab (takeIdx v))
    (broadcastInDim S600000x128 ![] bcast_S_S600000x128 (constant (F := Ideal) S_ .f32 0x7FC00000#32))

theorem takeIdx_apply (p : Fin 600000) (q : Fin 1) :
    takeIdx v (ix2 p q) = wrapWord (v (ix1 p)) := by
  unfold takeIdx
  rw [brows_apply]
  exact select_wrap (v (ix1 p))

/-- In-range words pass both comparisons, so every mask entry is 1. -/
theorem takeMask_apply
    (hs : ∀ e : Fin 600000, 0 ≤ (v (ix1 e)).toInt ∧ (v (ix1 e)).toInt < 50000) (p : Fin 600000) :
    takeMask v (ix1 p) = 1#1 := by
  unfold takeMask
  have key : ∀ (a : Fin 600000) (b : Fin 1),
      IntOp.andi (IntOp.cmpi .sge (takeIdx v (ix2 a b)) 0#32) (IntOp.cmpi .sle (takeIdx v (ix2 a b)) 49999#32) = 1#1 := by
    intro a b
    obtain ⟨h0, h1⟩ := hs a
    rw [takeIdx_apply]
    unfold wrapWord
    rw [if_neg (by omega)]
    exact IntOp.andi_eq_one.mpr ⟨IntOp.cmpi_sge.mpr h0, IntOp.cmpi_sle.mpr (Int.lt_add_one_iff.mp h1)⟩
  refine reduce_andi_one _ _ _ _ _ rfl fun i => ?_
  rw [eq_ix2 i]
  exact key _ _

/-- With the mask all set the selection is the gathered row at the wrapped word. -/
theorem takeVal_apply (tab : S50000x128.Idx → EReal)
    (hs : ∀ e : Fin 600000, 0 ≤ (v (ix1 e)).toInt ∧ (v (ix1 e)).toInt < 50000) (e : Fin 600000) (j : Fin 128) :
    takeVal v tab (ix2 e j) = tab (ix2 (srcIdx (v (ix1 e))) j) := by
  unfold takeVal
  rw [select_apply, brows_apply, takeMask_apply v hs, select_one,
    Cert.LibScatterGather2.gather_apply_clamp _ rfl rfl rfl rfl rfl tab (takeIdx v) e j (by decide)]
  refine congrArg (fun r => tab (ix2 r j)) (Fin.ext ?_)
  show min (takeIdx v (ix2 e (0 : Fin 1))).toInt.toNat (50000 - 1) = min (wrapWord (v (ix1 e))).toInt.toNat 49999
  rw [takeIdx_apply]

theorem host21_v26 (W : Valuation τ sig (Elt Ideal))
    (hs : ∀ e : Fin 600000, 0 ≤ (W main_v1 (ix1 e)).toInt ∧ (W main_v1 (ix1 e)).toInt < 50000)
    (e : Fin 600000) (j : Fin 128) :
    StableHlo.after (hostOps2_1 (F := Ideal)) W main_v26 (ix2 e j)
      = mat (W main_v25) (srcIdx (W main_v1 (ix1 e))) j := by
  have h : StableHlo.after (hostOps2_1 (F := Ideal)) W main_v26 = takeVal (W main_v1) (W main_v25) := by
    show (StableHlo.after (hostOps2_1 (F := Ideal)) W (Proc.devRef .tc main_v26) : S600000x128.Idx → EReal) = _
    after_results_simp
    simp only [StableHlo.TRef.ofBuf, StableHlo.TRef.toBuf, cast_eq]
    rfl
  rw [h]
  exact takeVal_apply _ _ hs e j

end Cert.KernelIdeal.Hand

end
-- ==== Proof.LibBlockSum.lean ====
import Mathlib.Algebra.BigOperators.Fin
import Mathlib.Data.Fintype.BigOperators
import Mathlib.Logic.Equiv.Fin.Basic

namespace Cert.BlockSum

open scoped BigOperators

theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below `B * S` is `S * b + r` for exactly one block `b` and offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Entry `(p, k)` of block `t` of a window of row blocks sits at row `B * t + p`, column `k`. -/
theorem off_row {i : Fin 2 → ℕ} {t : ℕ} (h : i 0 = t ∧ i 1 = 0) (B C p k : ℕ) :
    i 0 * B + 1 * p = B * t + p ∧ i 1 * C + 1 * k = k := by
  rw [h.1, h.2, Nat.mul_comm t B]; omega

end Cert.BlockSum
-- ==== Proof.LibColStats.lean ====
import proofs.«416878_j12463995093413_1_alg».proof.Proof.LibBlockSum
import Idealize.ShloMosaic.PureOps.Ideal.Laws
import Idealize.ShloMosaic.Lib.ValueLayout

noncomputable section

namespace Cert.ColStats

open Idealize.ShloMosaic Idealize.ShloMosaic.ValueIdx Cert.BlockSum
open scoped BigOperators

/-- The constant-zero row reads zero everywhere. -/
theorem zeroRow_apply {s : Shape} (hc : s.ShapeCasts s) (i : s.Idx) :
    shapeCast s (broadcast s (Scalar.ofBits (F := Ideal) .f32 0x00000000#32)) hc i = 0 :=
  (congrFun (shapeCast_self _ hc) i).trans Ideal.ofBits_zero_f32

variable {S C : ℕ} (p : FVec Ideal ⟨2, ![S, C]⟩ .f32) (acc : FVec Ideal ⟨2, ![1, C]⟩ .f32)
  (hr : Shape.Reduces ⟨2, ![S, C]⟩ [0] ⟨1, ![C]⟩) (hφ : FKind.Formats .f32)
  (hacc : (0x00000000#32 : BitVec FTy.f32.bits) = FKind.add.neutral .f32 hφ)
  (hc : (⟨1, ![C]⟩ : Shape).ShapeCasts ⟨2, ![1, C]⟩) (hc' : (⟨2, ![1, C]⟩ : Shape).ShapeCasts ⟨2, ![1, C]⟩)

/-- One step of a column accumulator: the old row plus the block's sum over its rows. -/
abbrev addRows : FVec Ideal ⟨2, ![1, C]⟩ .f32 :=
  shapeCast ⟨2, ![1, C]⟩ (addf acc (shapeCast ⟨2, ![1, C]⟩ (multiReduction .add [0] ⟨1, ![C]⟩ p 0x00000000#32 hr hφ hacc) hc)) hc'

/-- At a column it is the old value plus the column's sum over the block's rows. -/
theorem accRow_apply (q : Fin C) : addRows p acc hr hφ hacc hc hc' (ix2 0 q) = acc (ix2 0 q) + ∑ r : Fin S, p (ix2 r q) :=
  (congrFun (shapeCast_self _ hc') _).trans <| congrArg (acc (ix2 0 q) + ·) <|
    (shapeCast_a_1a_apply _ hc 0 q).trans <| (Ideal.multiReduction_add_single p _ hr hφ hacc (ix1 q)).trans <|
      Finset.sum_congr rfl fun r _ => congrArg p (funext fun a => Fin.ext (match a with | ⟨0, _⟩ => rfl | ⟨1, _⟩ => rfl))

/-- Running sums that start at zero and add one block of S consecutive terms a step hold, after the last of B steps, the sum of all B * S terms. -/
theorem blocks_total {N B S : ℕ} (hN : N = B) (x : Fin (B * S) → EReal) (f : (n : ℕ) → n < N → EReal)
    {z : EReal} (hz : z = 0)
    (h0 : ∀ h, f 0 h = z + ∑ r : Fin S, x ⟨S * 0 + r.val, block_lt ⟨0, hN ▸ h⟩ r⟩)
    (hs : ∀ n h, f (n + 1) h = f n (Nat.lt_of_succ_lt h)
      + ∑ r : Fin S, x ⟨S * (n + 1) + r.val, block_lt ⟨n + 1, hN ▸ h⟩ r⟩)
    (n : ℕ) (h : n < N) (hn : n + 1 = N) : f n h = ∑ i, x i := by
  subst hN
  have key : ∀ n h, f n h = ∑ i ∈ Finset.range (n + 1),
      if hi : i < N then ∑ r : Fin S, x ⟨S * i + r.val, block_lt ⟨i, hi⟩ r⟩ else 0 := by
    intro n
    induction n with
    | zero => intro h; rw [h0, hz, zero_add, Finset.sum_range_one, dif_pos h]
    | succ n ih => intro h; rw [hs, ih, Finset.sum_range_succ _ (n + 1), dif_pos h]
  rw [key, hn, Finset.sum_range, ← sum_blocks]
  exact Finset.sum_congr rfl fun b _ => dif_pos b.isLt

/-- Offsets that are a zero block index times a block size are zero. -/
theorem zeroOff {f s : Fin 2 → ℕ} (h : f 0 = 0 ∧ f 1 = 0) : (fun a => f a * s a) = fun _ => 0 :=
  funext fun a => match a with
    | ⟨0, _⟩ => (congrArg (· * s 0) h.1).trans (Nat.zero_mul _)
    | ⟨1, _⟩ => (congrArg (· * s 1) h.2).trans (Nat.zero_mul _)

variable {hr hφ hacc hc hc'}

/-- Two accumulators stepped from zero, one by each block of S rows and one by its squares, end as a column's sum and sum of squares over all B * S rows. -/
theorem colStats {N B : ℕ} (hN : N = B) (X : Fin (B * S) → EReal) (q : Fin C)
    (P : (n : ℕ) → n < N → FVec Ideal ⟨2, ![S, C]⟩ .f32)
    (hP : ∀ n h r, P n h (ix2 r q) = X ⟨S * n + r.val, block_lt ⟨n, hN ▸ h⟩ r⟩)
    (a b : (n : ℕ) → n < N → FVec Ideal ⟨2, ![1, C]⟩ .f32)
    {z z' : FVec Ideal ⟨2, ![1, C]⟩ .f32} (hz : z (ix2 0 q) = 0) (hz' : z' (ix2 0 q) = 0)
    (ha0 : ∀ h, a 0 h = addRows (P 0 h) z hr hφ hacc hc hc')
    (has : ∀ n h, a (n + 1) h = addRows (P (n + 1) h) (a n (Nat.lt_of_succ_lt h)) hr hφ hacc hc hc')
    (hb0 : ∀ h, b 0 h = addRows (mulf (P 0 h) (P 0 h)) z' hr hφ hacc hc hc')
    (hbs : ∀ n h, b (n + 1) h = addRows (mulf (P (n + 1) h) (P (n + 1) h)) (b n (Nat.lt_of_succ_lt h)) hr hφ hacc hc hc')
    (n : ℕ) (h : n < N) (hn : n + 1 = N) : a n h (ix2 0 q) = ∑ i, X i ∧ b n h (ix2 0 q) = ∑ i, X i * X i :=
  have step : ∀ (p : FVec Ideal ⟨2, ![S, C]⟩ .f32) (acc : FVec Ideal ⟨2, ![1, C]⟩ .f32) (x : Fin S → EReal),
      (∀ r, p (ix2 r q) = x r) → addRows p acc hr hφ hacc hc hc' (ix2 0 q) = acc (ix2 0 q) + ∑ r, x r := fun p acc x hx =>
    (accRow_apply p acc hr hφ hacc hc hc' q).trans (congrArg (_ + ·) (Finset.sum_congr rfl fun r _ => hx r))
  ⟨blocks_total hN X (fun n h => a n h (ix2 0 q)) hz (fun h => (congrFun (ha0 h) _).trans (step _ _ _ (hP 0 h)))
      (fun n h => (congrFun (has n h) _).trans (step _ _ _ (hP (n + 1) h))) n h hn,
    blocks_total hN (fun i => X i * X i) (fun n h => b n h (ix2 0 q)) hz'
      (fun h => (congrFun (hb0 h) _).trans (step _ _ _ fun r => congrArg (fun y => y * y) (hP 0 h r)))
      (fun n h => (congrFun (hbs n h) _).trans (step _ _ _ fun r => congrArg (fun y => y * y) (hP (n + 1) h r))) n h hn⟩

end Cert.ColStats

end
-- ==== Proof.LibSingleFlush.lean ====
import Idealize.ShloMosaic.Lib.Pipeline.Value

noncomputable section

namespace Idealize.ShloMosaic

open Idealize.SL Idealize.SL.Sem Idealize.SL.RA

namespace Pipeline

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)

/-- An output written back at ONE grid point only, whose block there is the whole array, ends holding what that
    point wrote back. -/
theorem Dat.arrAt_of_single_flush (w : Fin cfg.W) (t₀ : Fin cfg.N)
    (G : Buf Val ((cfg.win w).arr.view.loc (c.tc : Thread nD τ)))
    (h1 : ∀ t, (cfg.win w).flush t = true → t = t₀) (hf : (cfg.win w).flush t₀ = true)
    (hG : dat.flushed w t₀ = ((cfg.win w).blk t₀).view.read Val G)
    (hc : ∀ i, i ∈ ((cfg.win w).blk t₀).view.set) : dat.arrAt w cfg.N = G :=
  dat.arrAt_eq_of_cover w G (fun t h => by obtain rfl := h1 t h; exact hG) fun i => ⟨t₀, hf, hc i⟩

end Pipeline

end Idealize.ShloMosaic

end
-- ==== Proof.KIdeal.Value0.lean ====
import proofs.«416878_j12463995093413_1_alg».proof.Proof.KIdeal.Region0
import proofs.«416878_j12463995093413_1_alg».proof.Proof.Spec
import proofs.«416878_j12463995093413_1_alg».proof.Proof.LibPlainDot
import proofs.«416878_j12463995093413_1_alg».proof.Proof.LibColStats
import proofs.«416878_j12463995093413_1_alg».proof.Proof.LibSingleFlush

noncomputable section

namespace Cert.KernelIdeal.Hand

open Cert.KernelIdeal Cert.KernelIdeal.Gen Cert.ColStats Cert.BlockSum
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

theorem idx_facts0 : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0) :=
  (by decide +kernel : ∀ t : Fin grid0.N, (win0_0.index t 0 = t.val ∧ win0_0.index t 1 = 0)
    ∧ (win0_1.index t 0 = 0 ∧ win0_1.index t 1 = 0) ∧ (win0_2.index t 0 = 0 ∧ win0_2.index t 1 = 0))

/-- The affine map over all rows. -/
abbrev xlin0 (c : Dev nD) : Cert.Gin.Mat 600000 128 :=
  Cert.Gin.lin (Cert.Gin.mat (a := 600000) (b := 16) (V c main_arg2 : S600000x16.Idx → EReal))
    (Cert.Gin.mat (a := 16) (b := 128) (V c main_arg3 : S16x128.Idx → EReal))
    (Cert.Gin.row (b := 128) (V c main_v4 : S1x128.Idx → EReal))

/-- Row r of point t's block of the affine map is row 6000 t + r of the whole: the weight and bias blocks are their arrays, the row block starts at row 6000 t. -/
theorem k0_pay3_blk (c : Dev nD) (t : Fin cfg0.N) (r : Fin 6000) (q : Fin 128) :
    k0_pay3 (iblk0 V c 0 t) (iblk0 V c 1 t) (iblk0 V c 2 t) (ix2 r q)
      = xlin0 V c ⟨6000 * t.val + r.val, block_lt (B := 100) ⟨t.val, lt_of_lt_of_eq t.isLt N_0⟩ r⟩ q := by
  have h1 : iblk0 V c 1 t = V c main_arg3 := Memref.read_access_unit_zero _ main_arg3 (zeroOff (idx_facts0 t).2.1) _ _
  have h2 : iblk0 V c 2 t = V c main_v4 := Memref.read_access_unit_zero _ main_v4 (zeroOff (idx_facts0 t).2.2) _ _
  unfold k0_pay3
  rw [shapeCast_self, h1, h2]
  exact congrArg₂ (· + ·) ((Cert.LibPlainDot.matmul_zero_apply _ rfl rfl rfl rfl rfl rfl none _ _ r q).trans
      (Finset.sum_congr rfl fun k _ => congrArg (· * _) (congrArg (V c main_arg2)
        (Shape.idx_ext₂ (off_row (idx_facts0 t).1 6000 16 r k).1 (off_row (idx_facts0 t).1 6000 16 r k).2))))
    (broadcastTo_1b_ab_apply _ _ r q)

theorem h99_0 : 99 < cfg0.N := lt_of_lt_of_eq (by decide : 99 < 100) N_0.symm

theorem final0_3 (c : Dev nD) : (dat0 V c).arrAt 3 cfg0.N = (accAt0 V c 99 h99_0).1 :=
  have hz : (fun a => win0_3.index ⟨99, h99_0⟩ a * main_v14_0.ty.shape.size a) = fun _ => 0 := funext fun a => by fin_cases a <;> decide +kernel
  (dat0 V c).arrAt_of_single_flush 3 ⟨99, h99_0⟩ _
    (fun t hf => Fin.ext (show t.val = 99 by have := (flush0_3 t).mp hf; have := lt_of_lt_of_eq t.isLt N_0; omega))
    ((flush0_3 _).mpr rfl) (Memref.read_access_unit_zero _ main_v14_0 hz _ _).symm
    fun i => by rw [View.set_slice_whole]; exact View.mem_set_unit_zero hz _ i

theorem final0_4 (c : Dev nD) : (dat0 V c).arrAt 4 cfg0.N = (accAt0 V c 99 h99_0).2 :=
  have hz : (fun a => win0_4.index ⟨99, h99_0⟩ a * main_v14_1.ty.shape.size a) = fun _ => 0 := funext fun a => by fin_cases a <;> decide +kernel
  (dat0 V c).arrAt_of_single_flush 4 ⟨99, h99_0⟩ _
    (fun t hf => Fin.ext (show t.val = 99 by have := (flush0_4 t).mp hf; have := lt_of_lt_of_eq t.isLt N_0; omega))
    ((flush0_4 _).mpr rfl) (Memref.read_access_unit_zero _ main_v14_1 hz _ _).symm
    fun i => by rw [View.set_slice_whole]; exact View.mem_set_unit_zero hz _ i

/-- The accumulators after the last point: the column's sum and sum of squares over all rows. -/
theorem stats0 (c : Dev nD) (j : Fin 128) : (accAt0 V c 99 h99_0).1 (ix2 0 j) = Cert.Gin.csum (xlin0 V c) j
    ∧ (accAt0 V c 99 h99_0).2 (ix2 0 j) = Cert.Gin.csumsq (xlin0 V c) j :=
  colStats (B := 100) (S := 6000) N_0 (fun i => xlin0 V c i j) j
    (fun n h => k0_pay3 (iblk0 V c 0 ⟨n, h⟩) (iblk0 V c 1 ⟨n, h⟩) (iblk0 V c 2 ⟨n, h⟩)) (fun n h r => k0_pay3_blk V c ⟨n, h⟩ r j)
    (fun n h => (accAt0 V c n h).1) (fun n h => (accAt0 V c n h).2) (zeroRow_apply _ _) (zeroRow_apply _ _)
    (fun _ => rfl) (fun _ _ => rfl) (fun _ => rfl) (fun _ _ => rfl) 99 h99_0 rfl

theorem val0_sum (c : Dev nD) (j : Fin 128) :
    (dat0 (F := Ideal) V c).arrAt 3 cfg0.N (ix2 (0 : Fin 1) j)
      = Cert.Gin.csum (Cert.Gin.lin (Cert.Gin.mat (a := 600000) (b := 16) (V c main_arg2 : S600000x16.Idx → EReal))
          (Cert.Gin.mat (a := 16) (b := 128) (V c main_arg3 : S16x128.Idx → EReal))
          (Cert.Gin.row (b := 128) (V c main_v4 : S1x128.Idx → EReal))) j :=
  (congrFun (final0_3 V c) _).trans (stats0 V c j).1

theorem val0_sumsq (c : Dev nD) (j : Fin 128) :
    (dat0 (F := Ideal) V c).arrAt 4 cfg0.N (ix2 (0 : Fin 1) j)
      = Cert.Gin.csumsq (Cert.Gin.lin (Cert.Gin.mat (a := 600000) (b := 16) (V c main_arg2 : S600000x16.Idx → EReal))
          (Cert.Gin.mat (a := 16) (b := 128) (V c main_arg3 : S16x128.Idx → EReal))
          (Cert.Gin.row (b := 128) (V c main_v4 : S1x128.Idx → EReal))) j :=
  (congrFun (final0_4 V c) _).trans (stats0 V c j).2

end Cert.KernelIdeal.Hand

end
-- ==== Proof.KIdeal.Value1.lean ====
import proofs.«416878_j12463995093413_1_alg».proof.Proof.KIdeal.Region1
import proofs.«416878_j12463995093413_1_alg».proof.Proof.Spec
import proofs.«416878_j12463995093413_1_alg».proof.Proof.LibPlainDot
import proofs.«416878_j12463995093413_1_alg».proof.Proof.LibBlockSum
import Idealize.ShloMosaic.Lib.ValueLayout

namespace Cert.KernelIdeal.Hand

open Cert.KernelIdeal Cert.KernelIdeal.Gen Cert.Gin Cert.LibPlainDot Cert.BlockSum
open Idealize.ShloMosaic Idealize.ShloMosaic.TcCoe Idealize.ShloMosaic.ValueIdx

/-- The body's result at `(p, q)` when row `p` of the attribute block is row `r` of `X`: row `r` of the encoder of `X`. -/
theorem pay_r1_apply {n : ℕ} (x0 : Vec Ideal S6000x16 .f32) (x1 : Vec Ideal S16x128 .f32) (x2 x3 x4 x5 x6 : Vec Ideal S1x128 .f32)
    (x7 : Vec Ideal S128x128 .f32) (x8 : Vec Ideal S1x128 .f32) (X : Mat n 16) (p : Fin 6000) (r : Fin n) (q : Fin 128)
    (h : ∀ k, x0 (ix2 p k) = X r k) :
    out1_9 x0 x1 x2 x3 x4 x5 x6 x7 x8 (ix2 p q)
      = lin (bnrelu (lin X (mat x1) (row x2)) (row x3) (row x4) (row x5) (row x6)) (mat x7) (row x8) r q := by
  unfold out1_9 k1_pay1 k1_pay3 k1_pay2
  simp only [matmul, truncf_apply, maximumf_apply, addf_apply, mulf_apply, subf_apply, broadcast_apply, shapeCast_self,
    broadcastTo_1b_ab_apply, matmul_zero_apply dot_S6000x16_S16x128_S6000x128_1_0_0_1_n_n rfl rfl rfl rfl rfl rfl,
    matmul_zero_apply dot_S6000x128_S128x128_S6000x128_1_0_0_1_n_n rfl rfl rfl rfl rfl rfl, h,
    show FloatOps.ofBits (F := Ideal) .f32 0x00000000#32 = 0 from Ideal.ofBits_zero_f32]
  rfl

variable (V : (c : Dev nD) → (b : Ref sig .tc) → Buf (Elt Ideal) ((c : Thread nD τ).loc b))

theorem idx1_rows : ∀ t : Fin cfg1.N, (win1_0.index t 0 = t.val ∧ win1_0.index t 1 = 0) ∧ win1_9.index t 0 = t.val ∧ win1_9.index t 1 = 0 :=
  (by decide +kernel : ∀ t : Fin grid1.N, _)

theorem row_lt_r1 (t : Fin cfg1.N) (p : Fin 6000) : 6000 * t.val + p.val < 600000 := by
  have : cfg1.N = 100 := N_1
  omega

theorem emb1_0 (t : Fin cfg1.N) (p : Fin 6000) (k : Fin 16) :
    ((cfg1.win 0).blk t).view.emb (ix2 p k) = (ix2 ⟨_, row_lt_r1 t p⟩ k : S600000x16.Idx) :=
  Shape.idx_ext₂ (off_row (idx1_rows t).1 6000 16 p k).1 (off_row (idx1_rows t).1 6000 16 p k).2

theorem emb1_9 (t : Fin cfg1.N) (p : Fin 6000) (q : Fin 128) :
    ((cfg1.win 9).blk t).view.emb (ix2 p q) = (ix2 ⟨_, row_lt_r1 t p⟩ q : S600000x128.Idx) :=
  Shape.idx_ext₂ (off_row (idx1_rows t).2 6000 128 p q).1 (off_row (idx1_rows t).2 6000 128 p q).2

theorem iblk1_whole (c : Dev nD) (t : Fin cfg1.N) :
    iblk1 V c 1 t = V c main_arg3 ∧ iblk1 V c 2 t = V c main_v4 ∧ iblk1 V c 3 t = V c main_v16 ∧ iblk1 V c 4 t = V c main_v20 ∧
    iblk1 V c 5 t = V c main_v5 ∧ iblk1 V c 6 t = V c main_v6 ∧ iblk1 V c 7 t = V c main_arg7 ∧ iblk1 V c 8 t = V c main_v7 := by
  refine ⟨?_, ?_, ?_, ?_, ?_, ?_, ?_, ?_⟩ <;>
    exact Memref.read_access_unit_zero _ _ (funext fun a => match a with | ⟨0, _⟩ => rfl | ⟨1, _⟩ => rfl) _ _

/-- Row `r` of the output array is row `r % 6000` of the block of point `r / 6000`. -/
theorem cover1_arr (i : S600000x128.Idx) : ∃ t : Fin cfg1.N, (cfg1.win 9).flush t = true ∧ i ∈ ((cfg1.win 9).blk t).view.set := by
  obtain ⟨r, q, rfl⟩ : ∃ (r : Fin 600000) (q : Fin 128), i = ix2 r q := ⟨i 0, i 1, eq_ix2 i⟩
  have ht : r.val / 6000 < cfg1.N := by have : cfg1.N = 100 := N_1; omega
  have h := View.emb_mem_set ((cfg1.win 9).blk ⟨_, ht⟩).view (ix2 ⟨r.val % 6000, Nat.mod_lt _ (by decide)⟩ q)
  rw [emb1_9, show (⟨_, _⟩ : Fin 600000) = r from Fin.ext (Nat.div_add_mod r.val 6000)] at h
  exact ⟨_, flush1_9 _, h⟩

/-- Each point writes back its rows of the encoder of the whole arrays, and the blocks cover the output: it ends at the encoder. -/
theorem val1 (c : Dev nD) (e : Fin 600000) (j : Fin 128) :
    (dat1 (F := Ideal) V c).arrAt 9 cfg1.N (ix2 e j)
      = lin (bnrelu (lin (mat (V c main_arg2 : S600000x16.Idx → EReal)) (mat (V c main_arg3 : S16x128.Idx → EReal)) (row (V c main_v4 : S1x128.Idx → EReal)))
          (row (V c main_v16 : S1x128.Idx → EReal)) (row (V c main_v20 : S1x128.Idx → EReal)) (row (V c main_v5 : S1x128.Idx → EReal))
          (row (V c main_v6 : S1x128.Idx → EReal)))
        (mat (V c main_arg7 : S128x128.Idx → EReal)) (row (V c main_v7 : S1x128.Idx → EReal)) e j := by
  refine (congrFun ((dat1 V c).arrAt_eq_of_cover 9 (unmat _) (fun t _ => funext fun y => ?_) cover1_arr) (ix2 e j)).trans (unmat_ix2 _ e j)
  obtain ⟨p, q, rfl⟩ : ∃ (p : Fin 6000) (q : Fin 128), y = ix2 p q := ⟨y 0, y 1, eq_ix2 y⟩
  rw [View.read_apply, emb1_9 t p q]
  refine (congrFun (after1_9 V c t) _).trans ?_
  simp only [iblk1_whole V c t]
  exact pay_r1_apply _ _ _ _ _ _ _ _ _ _ p _ q fun k => congrArg (V c main_arg2 : S600000x16.Idx → EReal) (emb1_0 t p k)

end Cert.KernelIdeal.Hand
-- ==== Proof.KIdeal.Value2.lean ====
import proofs.«416878_j12463995093413_1_alg».proof.Proof.KIdeal.Region2
import proofs.«416878_j12463995093413_1_alg».proof.Proof.Spec
import proofs.«416878_j12463995093413_1_alg».proof.Proof.LibPlainDot
import proofs.«416878_j12463995093413_1_alg».proof.Proof.LibColStats
import proofs.«416878_j12463995093413_1_alg».proof.Proof.LibSingleFlush

noncomputable section

namespace Cert.KernelIdeal.Hand

open Cert.KernelIdeal Cert.KernelIdeal.Gen Cert.ColStats Cert.BlockSum
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

/-- The affine image whose column statistics the region computes: the two arrays' sum, times the weights, plus the bias. -/
abbrev yaff2 (c : Dev nD) : Cert.Gin.Mat 50000 128 :=
  Cert.Gin.lin (fun r j => Cert.Gin.mat (V c main_v25 : S50000x128.Idx → EReal) r j + Cert.Gin.mat (V c main_v29 : S50000x128.Idx → EReal) r j)
    (Cert.Gin.mat (V c main_arg9 : S128x128.Idx → EReal)) (Cert.Gin.row (V c main_v8 : S1x128.Idx → EReal))

theorem idx2_0 : ∀ t : Fin cfg2.N, win2_0.index t 0 = t.val ∧ win2_0.index t 1 = 0 :=
  (by decide +kernel : ∀ t : Fin grid2.N, win2_0.index t 0 = t.val ∧ win2_0.index t 1 = 0)
theorem idx2_1 : ∀ t : Fin cfg2.N, win2_1.index t 0 = t.val ∧ win2_1.index t 1 = 0 :=
  (by decide +kernel : ∀ t : Fin grid2.N, win2_1.index t 0 = t.val ∧ win2_1.index t 1 = 0)
theorem idx2_2 : ∀ t : Fin cfg2.N, win2_2.index t 0 = 0 ∧ win2_2.index t 1 = 0 :=
  (by decide +kernel : ∀ t : Fin grid2.N, win2_2.index t 0 = 0 ∧ win2_2.index t 1 = 0)
theorem idx2_3 : ∀ t : Fin cfg2.N, win2_3.index t 0 = 0 ∧ win2_3.index t 1 = 0 :=
  (by decide +kernel : ∀ t : Fin grid2.N, win2_3.index t 0 = 0 ∧ win2_3.index t 1 = 0)

/-- Row r of point t's block of the affine image is row 5000 t + r of the whole: the weight and bias blocks are their arrays, the row blocks start at row 5000 t. -/
theorem k2_pay3_blk (c : Dev nD) (t : Fin cfg2.N) (r : Fin 5000) (j : Fin 128) :
    k2_pay3 (iblk2 V c 0 t) (iblk2 V c 1 t) (iblk2 V c 2 t) (iblk2 V c 3 t) (ix2 r j)
      = yaff2 V c ⟨5000 * t.val + r.val, block_lt (B := 10) ⟨t.val, lt_of_lt_of_eq t.isLt N_2⟩ r⟩ j := by
  have h2 : iblk2 V c 2 t = V c main_arg9 := Memref.read_access_unit_zero _ main_arg9 (zeroOff (idx2_2 t)) _ _
  have h3 : iblk2 V c 3 t = V c main_v8 := Memref.read_access_unit_zero _ main_v8 (zeroOff (idx2_3 t)) _ _
  unfold k2_pay3
  simp only [shapeCast_self]
  rw [h2, h3]
  exact congrArg₂ (· + ·) ((Cert.LibPlainDot.matmul_zero_apply _ rfl rfl rfl rfl rfl rfl none _ _ r j).trans
      (Finset.sum_congr rfl fun k _ => congrArg (· * _) (congrArg₂ (fun x y : EReal => x + y)
        (congrArg (V c main_v25) (Shape.idx_ext₂ (off_row (idx2_0 t) 5000 128 r k).1 (off_row (idx2_0 t) 5000 128 r k).2))
        (congrArg (V c main_v29) (Shape.idx_ext₂ (off_row (idx2_1 t) 5000 128 r k).1 (off_row (idx2_1 t) 5000 128 r k).2)))))
    (broadcastTo_1b_ab_apply _ _ r j)

theorem final2_4 (c : Dev nD) : (dat2 V c).arrAt 4 cfg2.N = sumAt2 V c 9 t2_9.isLt :=
  have hz : (fun a => win2_4.index t2_9 a * main_v30_0.ty.shape.size a) = fun _ => 0 := funext fun a => by fin_cases a <;> decide +kernel
  (dat2 V c).arrAt_of_single_flush 4 t2_9 _
    (fun t hf => Fin.ext (show t.val = 9 by have := (flush2_4 t).mp hf; have := lt_of_lt_of_eq t.isLt N_2; omega))
    ((flush2_4 _).mpr rfl) (Memref.read_access_unit_zero _ main_v30_0 hz _ _).symm
    fun i => by rw [View.set_slice_whole]; exact View.mem_set_unit_zero hz _ i

theorem final2_5 (c : Dev nD) : (dat2 V c).arrAt 5 cfg2.N = sqAt2 V c 9 t2_9.isLt :=
  have hz : (fun a => win2_5.index t2_9 a * main_v30_1.ty.shape.size a) = fun _ => 0 := funext fun a => by fin_cases a <;> decide +kernel
  (dat2 V c).arrAt_of_single_flush 5 t2_9 _
    (fun t hf => Fin.ext (show t.val = 9 by have := (flush2_5 t).mp hf; have := lt_of_lt_of_eq t.isLt N_2; omega))
    ((flush2_5 _).mpr rfl) (Memref.read_access_unit_zero _ main_v30_1 hz _ _).symm
    fun i => by rw [View.set_slice_whole]; exact View.mem_set_unit_zero hz _ i

/-- The accumulators after the last point: the column's sum and sum of squares over all rows. -/
theorem stats2 (c : Dev nD) (j : Fin 128) : sumAt2 V c 9 t2_9.isLt (ix2 0 j) = Cert.Gin.csum (yaff2 V c) j
    ∧ sqAt2 V c 9 t2_9.isLt (ix2 0 j) = Cert.Gin.csumsq (yaff2 V c) j :=
  colStats (B := 10) (S := 5000) N_2 (fun i => yaff2 V c i j) j
    (fun n h => k2_pay3 (iblk2 V c 0 ⟨n, h⟩) (iblk2 V c 1 ⟨n, h⟩) (iblk2 V c 2 ⟨n, h⟩) (iblk2 V c 3 ⟨n, h⟩)) (fun n h r => k2_pay3_blk V c ⟨n, h⟩ r j)
    (sumAt2 V c) (sqAt2 V c) (zeroRow_apply _ _) (zeroRow_apply _ _)
    (fun _ => rfl) (fun _ _ => rfl) (fun _ => rfl) (fun _ _ => rfl) 9 t2_9.isLt rfl

theorem val2_sum (c : Dev nD) (j : Fin 128) :
    (dat2 (F := Ideal) V c).arrAt 4 cfg2.N (ix2 (0 : Fin 1) j) = Cert.Gin.csum (yaff2 V c) j :=
  (congrFun (final2_4 V c) _).trans (stats2 V c j).1

theorem val2_sumsq (c : Dev nD) (j : Fin 128) :
    (dat2 (F := Ideal) V c).arrAt 5 cfg2.N (ix2 (0 : Fin 1) j) = Cert.Gin.csumsq (yaff2 V c) j :=
  (congrFun (final2_5 V c) _).trans (stats2 V c j).2

end Cert.KernelIdeal.Hand

end
-- ==== Proof.KIdeal.Value3.lean ====
import proofs.«416878_j12463995093413_1_alg».proof.Proof.KIdeal.Region3
import proofs.«416878_j12463995093413_1_alg».proof.Proof.Spec
import proofs.«416878_j12463995093413_1_alg».proof.Proof.LibPlainDot
import proofs.«416878_j12463995093413_1_alg».proof.Proof.LibColStats
import proofs.«416878_j12463995093413_1_alg».proof.Proof.LibSingleFlush
import Idealize.ShloMosaic.Lib.ValueLayout

noncomputable section

namespace Cert.KernelIdeal.Hand

open Cert.KernelIdeal Cert.KernelIdeal.Gen
open Cert.Gin (lin mat row bnrelu csum csumsq Mat)
open Idealize.ShloMosaic Idealize.ShloMosaic.TcCoe Idealize.ShloMosaic.ValueIdx
open scoped BigOperators

/-- A one-row array broadcast over the block's rows reads, at `(r, k)`, the row's entry `k`. -/
theorem bcast_r3 (v : Vec Ideal S1x128 .f32) (h1 : S1x128.ShapeCasts S1x128) (h2 : S1x128.Broadcasts S5000x128)
    (r : Fin 5000) (k : Fin 128) :
    broadcastTo S5000x128 (shapeCast S1x128 v h1) h2 (ix2 r k) = row v k :=
  (broadcastTo_1b_ab_apply _ _ r k).trans (congrFun (shapeCast_self v _) _)

/-- The affine map on a block: rounding the operands changes nothing over the extended reals. -/
theorem k3_pay1_apply (x : FVec Ideal S5000x128 .f32) (w : Vec Ideal S128x128 .f32) (b : Vec Ideal S1x128 .f32)
    (r : Fin 5000) (j : Fin 128) :
    k3_pay1 (F := Ideal) x w b (ix2 r j) = lin (mat x) (mat w) (row b) r j :=
  congrArg₂ (· + ·) (Cert.LibPlainDot.matmul_zero_apply _ rfl rfl rfl rfl rfl rfl none _ _ r j) (bcast_r3 b _ _ r j)

/-- The two row blocks' sum through the first affine map, normalised with the given mean and variance, scaled, shifted, rectified. -/
theorem k3_pay6_apply (v3 v5 : Vec Ideal S5000x128 .f32) (v9 : Vec Ideal S128x128 .f32)
    (v12 v16 v21 v27 v31 : Vec Ideal S1x128 .f32) (r : Fin 5000) (k : Fin 128) :
    k3_pay6 (F := Ideal) v3 v5 v9 v12 v16 v21 v27 v31 (ix2 r k)
      = bnrelu (lin (fun i m => v3 (ix2 i m) + v5 (ix2 i m)) (mat v9) (row v12)) (row v21) (row v16) (row v27) (row v31) r k := by
  refine congrArg₂ max (congrArg₂ (· + ·) (congrArg₂ (· * ·) (congrArg₂ (· * ·) (congrArg₂ (· - ·)
    (congrArg₂ (· + ·) ((Cert.LibPlainDot.matmul_zero_apply _ rfl rfl rfl rfl rfl rfl none _ _ r k).trans ?_) (bcast_r3 v12 _ _ r k))
    (bcast_r3 v21 _ _ r k)) ?_) (bcast_r3 v27 _ _ r k)) (bcast_r3 v31 _ _ r k)) Ideal.ofBits_zero_f32
  · show ∑ m, (shapeCast S5000x128 v3 _ (ix2 r m) + shapeCast S5000x128 v5 _ (ix2 r m)) * v9 (ix2 m k) = _
    rw [shapeCast_self, shapeCast_self]; rfl
  · refine (broadcastTo_1b_ab_apply _ _ r k).trans ?_
    show Ideal.rsqrt (shapeCast S1x128 v16 _ (ix2 (0 : Fin 1) k) + Cert.Gin.eps) = _
    rw [shapeCast_self]; rfl

variable (V : (c : Dev nD) → (b : Ref sig .tc) → Buf (Elt Ideal) ((c : Thread nD τ).loc b))

/-- The sum of the two row arrays, and the two affine maps' outputs on it, as matrices over the arrays' entries. -/
abbrev zin_r3 (c : Dev nD) : Cert.Gin.Mat 50000 128 :=
  fun r j => Cert.Gin.mat (V c main_v25) r j + Cert.Gin.mat (V c main_v29) r j
abbrev y1_r3 (c : Dev nD) : Cert.Gin.Mat 50000 128 :=
  Cert.Gin.lin (zin_r3 V c) (Cert.Gin.mat (V c main_arg9)) (Cert.Gin.row (V c main_v8))
abbrev y2_r3 (c : Dev nD) : Cert.Gin.Mat 50000 128 :=
  Cert.Gin.lin (Cert.Gin.bnrelu (y1_r3 V c) (Cert.Gin.row (V c main_v32)) (Cert.Gin.row (V c main_v36)) (Cert.Gin.row (V c main_v9)) (Cert.Gin.row (V c main_v10)))
    (Cert.Gin.mat (V c main_arg13)) (Cert.Gin.row (V c main_v11))

theorem idx3_rows : ∀ t : Fin cfg3.N, win3_0.index t 0 = t.val :=
  (by decide +kernel : ∀ t : Fin grid3.N, win3_0.index t 0 = t.val)

theorem row_lt_r3 (t : Fin cfg3.N) (r : Fin 5000) : 5000 * t.val + r.val < 50000 := by
  have := t.isLt; have : cfg3.N = 10 := N_3; have := r.isLt; omega

/-- Entry `(r, m)` of a row window's block at point `t` sits at `(5000·t + r, m)` in the array. -/
theorem rows_r3 (t : Fin cfg3.N) (r : Fin 5000) (m : Fin 128) :
    (win3_0.rect t).emb (ix2 r m) = ix2 ⟨5000 * t.val + r.val, row_lt_r3 t r⟩ m :=
  have h := Cert.BlockSum.off_row (i := win3_0.index t) ⟨idx3_rows t, rfl⟩ 5000 128 r m
  Shape.idx_ext₂ h.1 h.2

theorem iblk3_0_apply (c : Dev nD) (t : Fin cfg3.N) (r : Fin 5000) (m : Fin 128) :
    iblk3 V c 0 t (ix2 r m) = mat (V c main_v25) ⟨5000 * t.val + r.val, row_lt_r3 t r⟩ m :=
  congrArg (V c main_v25) (rows_r3 t r m)
theorem iblk3_1_apply (c : Dev nD) (t : Fin cfg3.N) (r : Fin 5000) (m : Fin 128) :
    iblk3 V c 1 t (ix2 r m) = mat (V c main_v29) ⟨5000 * t.val + r.val, row_lt_r3 t r⟩ m :=
  congrArg (V c main_v29) (rows_r3 t r m)

/-- Every other input window's block is its whole array, at every point. -/
theorem iblk3_whole (c : Dev nD) (t : Fin cfg3.N) :
    iblk3 V c 2 t = V c main_arg9 ∧ iblk3 V c 3 t = V c main_v8 ∧ iblk3 V c 4 t = V c main_v32 ∧ iblk3 V c 5 t = V c main_v36
      ∧ iblk3 V c 6 t = V c main_v9 ∧ iblk3 V c 7 t = V c main_v10 ∧ iblk3 V c 8 t = V c main_arg13 ∧ iblk3 V c 9 t = V c main_v11 := by
  refine ⟨?_, ?_, ?_, ?_, ?_, ?_, ?_, ?_⟩ <;>
    exact Memref.read_access_unit_zero _ _ (Cert.ColStats.zeroOff ⟨rfl, rfl⟩) _ _

/-- Entry `(r, k)` of the rectified block at point `t` is entry `(5000·t + r, k)` of the whole rectified matrix. -/
theorem xb_r3_apply (c : Dev nD) (t : Fin cfg3.N) (r : Fin 5000) (k : Fin 128) :
    xb_r3 V c t (ix2 r k) = bnrelu (y1_r3 V c) (row (V c main_v32)) (row (V c main_v36)) (row (V c main_v9)) (row (V c main_v10))
      ⟨5000 * t.val + r.val, row_lt_r3 t r⟩ k := by
  refine (k3_pay6_apply _ _ _ _ _ _ _ _ r k).trans ?_
  simp only [bnrelu, lin, iblk3_whole, iblk3_0_apply, iblk3_1_apply]

/-- So the second affine map of that block is `y2` at the same rows. -/
theorem blk_y2_r3 (c : Dev nD) (t : Fin cfg3.N) (r : Fin 5000) (j : Fin 128) :
    k3_pay1 (F := Ideal) (xb_r3 V c t) (iblk3 V c 8 t) (iblk3 V c 9 t) (ix2 r j)
      = y2_r3 V c ⟨5000 * t.val + r.val, row_lt_r3 t r⟩ j := by
  refine (k3_pay1_apply _ _ _ r j).trans ?_
  simp only [lin, mat, xb_r3_apply, iblk3_whole]

/-- One point adds its block's column sums of `y2`, and of its squares, to the pair of accumulators. -/
theorem step_r3 (c : Dev nD) (t : Fin cfg3.N) (j : Fin 128) (a : Vec Ideal S1x128 .f32 × Vec Ideal S1x128 .f32) :
    k3_pay2 (F := Ideal) (xb_r3 V c t) (iblk3 V c 8 t) (iblk3 V c 9 t) a.1 (ix2 (0 : Fin 1) j)
        = a.1 (ix2 (0 : Fin 1) j) + ∑ r : Fin 5000, y2_r3 V c ⟨5000 * t.val + r.val, row_lt_r3 t r⟩ j
      ∧ k3_pay3 (F := Ideal) (xb_r3 V c t) (iblk3 V c 8 t) (iblk3 V c 9 t) a.2 (ix2 (0 : Fin 1) j)
        = a.2 (ix2 (0 : Fin 1) j) + ∑ r : Fin 5000,
          y2_r3 V c ⟨5000 * t.val + r.val, row_lt_r3 t r⟩ j * y2_r3 V c ⟨5000 * t.val + r.val, row_lt_r3 t r⟩ j :=
  ⟨(Cert.ColStats.accRow_apply _ a.1 _ _ _ _ _ j).trans (congrArg _ (Finset.sum_congr rfl fun r _ => blk_y2_r3 V c t r j)),
    (Cert.ColStats.accRow_apply _ a.2 _ _ _ _ _ j).trans (congrArg _ (Finset.sum_congr rfl fun r _ =>
      congrArg₂ (· * ·) (blk_y2_r3 V c t r j) (blk_y2_r3 V c t r j)))⟩

theorem last_lt_r3 : 9 < cfg3.N := by rw [show cfg3.N = 10 from N_3]; decide

/-- Among the ten points only the last is 9 modulo 10. -/
theorem last_r3 (t : Fin cfg3.N) (h : t.val % 10 = 9) : t = t3_9 :=
  Fin.ext (by have := t.isLt; have : cfg3.N = 10 := N_3; show t.val = 9; omega)

/-- The output's block at the last point is the whole array, so the array ends equal to that point's accumulator. -/
theorem final3_10 (c : Dev nD) : (dat3 V c).arrAt 10 cfg3.N = (acc_r3 V c 9 last_lt_r3).1 := by
  have hz : (fun a => win3_10.index t3_9 a * main_v37_0.ty.shape.size a) = fun _ => 0 := Cert.ColStats.zeroOff ⟨rfl, rfl⟩
  refine (dat3 V c).arrAt_of_single_flush 10 t3_9 _ (fun t h => last_r3 t ((flush3_10 t).mp h)) ((flush3_10 _).mpr rfl)
    (Memref.read_access_unit_zero (Elt Ideal) main_v37_0 hz _ _).symm fun i => ?_
  show i ∈ ((View.whole main_v37_0).slice (win3_10.rect t3_9)).set
  rw [View.set_slice_whole]; exact View.mem_set_unit_zero hz _ i

theorem final3_11 (c : Dev nD) : (dat3 V c).arrAt 11 cfg3.N = (acc_r3 V c 9 last_lt_r3).2 := by
  have hz : (fun a => win3_11.index t3_9 a * main_v37_1.ty.shape.size a) = fun _ => 0 := Cert.ColStats.zeroOff ⟨rfl, rfl⟩
  refine (dat3 V c).arrAt_of_single_flush 11 t3_9 _ (fun t h => last_r3 t ((flush3_11 t).mp h)) ((flush3_11 _).mpr rfl)
    (Memref.read_access_unit_zero (Elt Ideal) main_v37_1 hz _ _).symm fun i => ?_
  show i ∈ ((View.whole main_v37_1).slice (win3_11.rect t3_9)).set
  rw [View.set_slice_whole]; exact View.mem_set_unit_zero hz _ i

/-- Result one: the column sums of `y2`. -/
theorem val3_sum (c : Dev nD) (j : Fin 128) :
    (dat3 (F := Ideal) V c).arrAt 10 cfg3.N (ix2 (0 : Fin 1) j) = Cert.Gin.csum (y2_r3 V c) j := by
  rw [final3_10]
  exact Cert.ColStats.blocks_total (S := 5000) N_3 (fun i => y2_r3 V c i j)
    (fun n h => (acc_r3 V c n h).1 (ix2 (0 : Fin 1) j)) (z := k3_pay4 (F := Ideal) (ix2 (0 : Fin 1) j))
    (Cert.ColStats.zeroRow_apply _ _) (fun h => (step_r3 V c ⟨0, h⟩ j (k3_pay4 (F := Ideal), k3_pay5 (F := Ideal))).1)
    (fun n h => (step_r3 V c ⟨n + 1, h⟩ j (acc_r3 V c n _)).1) 9 last_lt_r3 N_3.symm

/-- Result two: the column sums of squares of `y2`. -/
theorem val3_sumsq (c : Dev nD) (j : Fin 128) :
    (dat3 (F := Ideal) V c).arrAt 11 cfg3.N (ix2 (0 : Fin 1) j) = Cert.Gin.csumsq (y2_r3 V c) j := by
  rw [final3_11]
  exact Cert.ColStats.blocks_total (S := 5000) N_3 (fun i => y2_r3 V c i j * y2_r3 V c i j)
    (fun n h => (acc_r3 V c n h).2 (ix2 (0 : Fin 1) j)) (z := k3_pay4 (F := Ideal) (ix2 (0 : Fin 1) j))
    (Cert.ColStats.zeroRow_apply _ _) (fun h => (step_r3 V c ⟨0, h⟩ j (k3_pay4 (F := Ideal), k3_pay5 (F := Ideal))).2)
    (fun n h => (step_r3 V c ⟨n + 1, h⟩ j (acc_r3 V c n _)).2) 9 last_lt_r3 N_3.symm

end Cert.KernelIdeal.Hand

end
-- ==== Proof.KIdeal.Value4.lean ====
import proofs.«416878_j12463995093413_1_alg».proof.Proof.KIdeal.Region4
import proofs.«416878_j12463995093413_1_alg».proof.Proof.Spec
import proofs.«416878_j12463995093413_1_alg».proof.Proof.LibPlainDot
import proofs.«416878_j12463995093413_1_alg».proof.Proof.LibBlockSum
import Idealize.ShloMosaic.Lib.ValueLayout

noncomputable section

namespace Cert.KernelIdeal.Hand

open Cert.KernelIdeal Cert.KernelIdeal.Gen Cert.Gin Cert.LibPlainDot Cert.BlockSum
open Idealize.ShloMosaic Idealize.ShloMosaic.TcCoe Idealize.ShloMosaic.ValueIdx

/-- The body's result at `(p, q)` when row `p` of the two row blocks added is row `r` of `Z`: row `r` of the node network of `Z`. -/
theorem out4_14_apply {n : ℕ} (x0 x1 : Vec Ideal S5000x128 .f32) (x2 : Vec Ideal S128x128 .f32) (x3 x4 x5 x6 x7 : Vec Ideal S1x128 .f32)
    (x8 : Vec Ideal S128x128 .f32) (x9 x10 x11 x12 x13 : Vec Ideal S1x128 .f32) (Z : Mat n 128) (p : Fin 5000) (r : Fin n) (q : Fin 128)
    (h : ∀ k, x0 (ix2 p k) + x1 (ix2 p k) = Z r k) :
    out4_14 x0 x1 x2 x3 x4 x5 x6 x7 x8 x9 x10 x11 x12 x13 (ix2 p q)
      = bnrelu (lin (bnrelu (lin Z (mat x2) (row x3)) (row x4) (row x5) (row x6) (row x7)) (mat x8) (row x9))
          (row x10) (row x11) (row x12) (row x13) r q := by
  unfold out4_14 k4_pay1 k4_pay2 k4_pay3
  simp only [matmul, truncf_apply, maximumf_apply, addf_apply, mulf_apply, subf_apply, broadcast_apply, shapeCast_self,
    broadcastTo_1b_ab_apply, matmul_zero_apply dot_S5000x128_S128x128_S5000x128_1_0_0_1_n_n rfl rfl rfl rfl rfl rfl, h,
    show FloatOps.ofBits (F := Ideal) .f32 0x00000000#32 = 0 from Ideal.ofBits_zero_f32]
  rfl

variable (V : (c : Dev nD) → (b : Ref sig .tc) → Buf (Elt Ideal) ((c : Thread nD τ).loc b))

theorem idx4_rows : ∀ t : Fin cfg4.N, win4_14.index t 0 = t.val ∧ win4_14.index t 1 = 0 :=
  (by decide +kernel : ∀ t : Fin grid4.N, _)

theorem row_lt_r4 (t : Fin cfg4.N) (p : Fin 5000) : 5000 * t.val + p.val < 50000 := by
  have : cfg4.N = 10 := N_4
  omega

/-- Windows 0 and 1 have the output window's index map and block shape: stated for the output's block, this serves all three. -/
theorem emb4_14 (t : Fin cfg4.N) (p : Fin 5000) (q : Fin 128) :
    ((cfg4.win 14).blk t).view.emb (ix2 p q) = (ix2 ⟨_, row_lt_r4 t p⟩ q : S50000x128.Idx) :=
  Shape.idx_ext₂ (off_row (idx4_rows t) 5000 128 p q).1 (off_row (idx4_rows t) 5000 128 p q).2

theorem iblk4_whole (c : Dev nD) (t : Fin cfg4.N) :
    iblk4 V c 2 t = V c main_arg9 ∧ iblk4 V c 3 t = V c main_v8 ∧ iblk4 V c 4 t = V c main_v32 ∧ iblk4 V c 5 t = V c main_v36 ∧
    iblk4 V c 6 t = V c main_v9 ∧ iblk4 V c 7 t = V c main_v10 ∧ iblk4 V c 8 t = V c main_arg13 ∧ iblk4 V c 9 t = V c main_v11 ∧
    iblk4 V c 10 t = V c main_v39 ∧ iblk4 V c 11 t = V c main_v43 ∧ iblk4 V c 12 t = V c main_v12 ∧ iblk4 V c 13 t = V c main_v13 := by
  refine ⟨?_, ?_, ?_, ?_, ?_, ?_, ?_, ?_, ?_, ?_, ?_, ?_⟩ <;>
    exact Memref.read_access_unit_zero _ _ (funext fun a => match a with | ⟨0, _⟩ => rfl | ⟨1, _⟩ => rfl) _ _

/-- Row `r` of the output array is row `r % 5000` of the block of point `r / 5000`. -/
theorem cover4 (i : S50000x128.Idx) : ∃ t : Fin cfg4.N, (cfg4.win 14).flush t = true ∧ i ∈ ((cfg4.win 14).blk t).view.set := by
  obtain ⟨r, q, rfl⟩ : ∃ (r : Fin 50000) (q : Fin 128), i = ix2 r q := ⟨i 0, i 1, eq_ix2 i⟩
  have ht : r.val / 5000 < cfg4.N := by have : cfg4.N = 10 := N_4; omega
  have h := View.emb_mem_set ((cfg4.win 14).blk ⟨_, ht⟩).view (ix2 ⟨r.val % 5000, Nat.mod_lt _ (by decide)⟩ q)
  rw [emb4_14, show (⟨_, _⟩ : Fin 50000) = r from Fin.ext (Nat.div_add_mod r.val 5000)] at h
  exact ⟨_, flush4_14 _, h⟩

abbrev z_r4 (c : Dev nD) : Cert.Gin.Mat 50000 128 :=
  fun r j => Cert.Gin.mat (V c main_v25 : S50000x128.Idx → EReal) r j + Cert.Gin.mat (V c main_v29 : S50000x128.Idx → EReal) r j
abbrev y_r4 (c : Dev nD) : Cert.Gin.Mat 50000 128 :=
  Cert.Gin.lin (z_r4 V c) (Cert.Gin.mat (V c main_arg9 : S128x128.Idx → EReal)) (Cert.Gin.row (V c main_v8 : S1x128.Idx → EReal))
abbrev yy_r4 (c : Dev nD) : Cert.Gin.Mat 50000 128 :=
  Cert.Gin.lin
    (Cert.Gin.bnrelu (y_r4 V c) (Cert.Gin.row (V c main_v32 : S1x128.Idx → EReal)) (Cert.Gin.row (V c main_v36 : S1x128.Idx → EReal))
      (Cert.Gin.row (V c main_v9 : S1x128.Idx → EReal)) (Cert.Gin.row (V c main_v10 : S1x128.Idx → EReal)))
    (Cert.Gin.mat (V c main_arg13 : S128x128.Idx → EReal)) (Cert.Gin.row (V c main_v11 : S1x128.Idx → EReal))

/-- Each point writes back its rows of the node network of the whole arrays, and the blocks cover the output: it ends at the network. -/
theorem val4 (c : Dev nD) (r : Fin 50000) (j : Fin 128) :
    (dat4 (F := Ideal) V c).arrAt 14 cfg4.N (ix2 r j)
      = Cert.Gin.bnrelu (yy_r4 V c) (Cert.Gin.row (V c main_v39 : S1x128.Idx → EReal)) (Cert.Gin.row (V c main_v43 : S1x128.Idx → EReal))
          (Cert.Gin.row (V c main_v12 : S1x128.Idx → EReal)) (Cert.Gin.row (V c main_v13 : S1x128.Idx → EReal)) r j := by
  refine (congrFun ((dat4 V c).arrAt_eq_of_cover 14 (unmat _) (fun t _ => funext fun y => ?_) cover4) (ix2 r j)).trans (unmat_ix2 _ r j)
  obtain ⟨p, q, rfl⟩ : ∃ (p : Fin 5000) (q : Fin 128), y = ix2 p q := ⟨y 0, y 1, eq_ix2 y⟩
  rw [View.read_apply, emb4_14 t p q]
  refine (congrFun (after4_14 V c t) _).trans ?_
  simp only [iblk4_whole V c t]
  exact out4_14_apply _ _ _ _ _ _ _ _ _ _ _ _ _ _ _ p _ q fun k => congrArg₂ (· + ·)
    (congrArg (V c main_v25 : S50000x128.Idx → EReal) (emb4_14 t p k)) (congrArg (V c main_v29 : S50000x128.Idx → EReal) (emb4_14 t p k))

end Cert.KernelIdeal.Hand

end
-- ==== Proof.KIdeal.KValue.lean ====
import proofs.«416878_j12463995093413_1_alg».proof.Proof.KIdeal.Segs
import proofs.«416878_j12463995093413_1_alg».proof.Proof.KIdeal.HostVal
import proofs.«416878_j12463995093413_1_alg».proof.Proof.KIdeal.HostTake
import proofs.«416878_j12463995093413_1_alg».proof.Proof.KIdeal.Value0
import proofs.«416878_j12463995093413_1_alg».proof.Proof.KIdeal.Value1
import proofs.«416878_j12463995093413_1_alg».proof.Proof.KIdeal.Value2
import proofs.«416878_j12463995093413_1_alg».proof.Proof.KIdeal.Value3
import proofs.«416878_j12463995093413_1_alg».proof.Proof.KIdeal.Value4
import proofs.«416878_j12463995093413_1_alg».proof.Proof.InpK

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Gin

/-- The node network's two affine maps over the arrays `W` holds. -/
abbrev yW (W : Valuation τ sig (Elt Ideal)) : Mat 50000 128 :=
  lin (fun r j => mat (W main_v25) r j + mat (W main_v29) r j) (mat (W main_arg9)) (row (W main_v8))
abbrev y2W (W : Valuation τ sig (Elt Ideal)) : Mat 50000 128 :=
  lin (bnrelu (yW W) (row (W main_v32)) (row (W main_v36)) (row (W main_v9)) (row (W main_v10))) (mat (W main_arg13))
    (row (W main_v11))

/-- Where the layer's inputs sit once the vectors are laid as rows. -/
abbrev inRefs : List (Ref sig .tc) :=
  [main_arg0, main_arg2, main_arg3, main_arg7, main_arg9, main_arg13, main_v1, main_v3, main_v4, main_v5, main_v6,
    main_v7, main_v8, main_v9, main_v10, main_v11, main_v12, main_v13]

/-- `W` holds the inputs `I` there. -/
structure InAt (W : Valuation τ sig (Elt Ideal)) (I : Inp) : Prop where
  h : mat (W main_arg0) = I.h
  ea : mat (W main_arg2) = I.ea
  w1 : mat (W main_arg3) = I.w1
  w2 : mat (W main_arg7) = I.w2
  mw1 : mat (W main_arg9) = I.mw1
  mw2 : mat (W main_arg13) = I.mw2
  src : ∀ e : Fin 600000, srcIdx (W main_v1 (ix1 e)) = I.src e
  srcb : ∀ e : Fin 600000, 0 ≤ (W main_v1 (ix1 e)).toInt ∧ (W main_v1 (ix1 e)).toInt < 50000
  dst : (fun e : Fin 600000 => (W main_v3 (ix1 e)).toInt) = I.dst
  b1 : row (W main_v4) = I.b1
  g1 : row (W main_v5) = I.g1
  bb1 : row (W main_v6) = I.bb1
  b2 : row (W main_v7) = I.b2
  mb1 : row (W main_v8) = I.mb1
  mg1 : row (W main_v9) = I.mg1
  mbb1 : row (W main_v10) = I.mbb1
  mb2 : row (W main_v11) = I.mb2
  mg2 : row (W main_v12) = I.mg2
  mbb2 : row (W main_v13) = I.mbb2

variable {W W' : Valuation τ sig (Elt Ideal)} {I : Inp} {v v1 : Row 128}

/-- A step that leaves those arrays alone keeps the inputs. -/
theorem InAt.step (hI : InAt W I) {P : Ref sig .tc → Prop}
    (hP : ∀ b ∈ inRefs, P b) (h : ∀ b : Ref sig .tc, P b → W' b = W b) : InAt W' I := by
  have h' : ∀ b ∈ inRefs, W' (Proc.devRef .tc b) = W (Proc.devRef .tc b) := fun b hb => h b (hP b hb)
  cases hI
  constructor <;> (rw [h'] <;> first | assumption | decide)

/-- `W` holds the new node features and their neighbour sums, for inputs `I` and first variance `v`. -/
abbrev MidAt (W : Valuation τ sig (Elt Ideal)) (I : Inp) (v : Row 128) : Prop :=
  mat (W main_v25) = hnew I v ∧ mat (W main_v29) = scat I.dst (fun e j => hnew I v (I.src e) j)

theorem lin_x1 (hW : InAt W I) :
    lin (mat (W main_arg2)) (mat (W main_arg3)) (row (W main_v4)) = x1 I := by
  rw [hW.ea, hW.w1, hW.b1]; rfl

theorem yW_eq (hin : InAt W I) (hmid : MidAt W I v) : yW W = y1 I v := by
  unfold yW
  rw [hmid.1, hmid.2, hin.mw1, hin.mb1]; rfl

theorem y2W_eq (hin : InAt W I) (hmid : MidAt W I v)
    (h32 : row (W main_v32) = mean cN (y1 I v)) (h36 : row (W main_v36) = v1) : y2W W = y2 I v v1 := by
  unfold y2W
  rw [yW_eq hin hmid, h32, h36, hin.mg1, hin.mbb1, hin.mw2, hin.mb2]; rfl

/-- Sums and sums of squares over the count give mean and variance. -/
theorem meanVar_of_sums {n : ℕ} {x : Mat n 128} {cnt : EReal} {s q mu var : S1x128.Idx → EReal}
    (hsum : ∀ j, s (ix2 (0 : Fin 1) j) = csum x j) (hsq : ∀ j, q (ix2 (0 : Fin 1) j) = csumsq x j)
    (hmu : ∀ j, mu (ix2 (0 : Fin 1) j) = Ideal.div (s (ix2 (0 : Fin 1) j)) cnt)
    (hvar : ∀ j, var (ix2 (0 : Fin 1) j) = Ideal.div (q (ix2 (0 : Fin 1) j)) cnt
      - Ideal.div (s (ix2 (0 : Fin 1) j)) cnt * Ideal.div (s (ix2 (0 : Fin 1) j)) cnt) :
    row mu = mean cnt x ∧ row var = varK cnt x :=
  ⟨funext fun j => (hmu j).trans (by rw [hsum j]; rfl), funext fun j => (hvar j).trans (by rw [hsum j, hsq j]; rfl)⟩

section Ladder

variable (m : (ℓ : Loc nD τ sig) → Buf (Elt Ideal) ℓ) (c : Dev nD) (b : Ref sig .tc)

/-- What an item does not write it leaves as it was. -/
theorem W1_of (h : b ∉ hostOps0_W) : W1 m c b = W0 m c b :=
  StableHlo.after_of_writes_sub hostOps0 _ hostOps0_writes h
theorem W3_W1 (h : (b ≠ main_v14_0 ∧ b ≠ main_v14_1) ∧ b ∉ hostOps1_W) : W3 m c b = W1 m c b :=
  (StableHlo.after_of_writes_sub hostOps1 _ hostOps1_writes h.2).trans
    (W2_other m c b (StableHlo.devRef_ne_of_ne h.1.1) (StableHlo.devRef_ne_of_ne h.1.2))
theorem W4_of (h : b ≠ main_v21) : W4 m c b = W3 m c b :=
  W4_other m c b (StableHlo.devRef_ne_of_ne h)
theorem W5_of (h : b ∉ hostOps2_W) : W5 m c b = W4 m c b :=
  StableHlo.after_of_writes_sub hostOps2 _ hostOps2_writes h
theorem W6_of (h : b ∉ hostOps2_1_W) : W6 m c b = W5 m c b :=
  StableHlo.after_of_writes_sub hostOps2_1 _ hostOps2_1_writes h
theorem W7_of (h : b ∉ hostOps2_2_W) : W7 m c b = W6 m c b :=
  StableHlo.after_of_writes_sub hostOps2_2 _ hostOps2_2_writes h
theorem W9_W7 (h : (b ≠ main_v30_0 ∧ b ≠ main_v30_1) ∧ b ∉ hostOps3_W) : W9 m c b = W7 m c b :=
  (StableHlo.after_of_writes_sub hostOps3 _ hostOps3_writes h.2).trans
    (W8_other m c b (StableHlo.devRef_ne_of_ne h.1.1) (StableHlo.devRef_ne_of_ne h.1.2))
theorem W11_W9 (h : (b ≠ main_v37_0 ∧ b ≠ main_v37_1) ∧ b ∉ hostOps4_W) : W11 m c b = W9 m c b :=
  (StableHlo.after_of_writes_sub hostOps4 _ hostOps4_writes h.2).trans
    (W10_other m c b (StableHlo.devRef_ne_of_ne h.1.1) (StableHlo.devRef_ne_of_ne h.1.2))

variable (hs : ∀ e : Fin 600000, 0 ≤ (m ((c.tc : Thread nD τ).loc main_arg1) (ix2 (0 : Fin 2) e)).toInt ∧
    (m ((c.tc : Thread nD τ).loc main_arg1) (ix2 (0 : Fin 2) e)).toInt < 50000)

local notation "𝕀" => Cert.Proof.inpK m c
local notation "𝕧0" => varK cE (x1 (Cert.Proof.inpK m c))
local notation "𝕧1" => varK cN (y1 (Cert.Proof.inpK m c) (varK cE (x1 (Cert.Proof.inpK m c))))

include hs

/-- At the start: matrices as given, the index array's two rows apart, each vector as one row. -/
theorem inAt1 : InAt (W1 m c) 𝕀 := by
  constructor
  iterate 6 (refine congrArg mat (W1_of m c _ ?_); decide)
  · exact fun e => congrArg srcIdx (host0_v1 (W0 m c) e)
  · exact fun e => (congrArg (fun w : BitVec 32 => 0 ≤ w.toInt ∧ w.toInt < 50000) (host0_v1 (W0 m c) e)).mpr (hs e)
  · exact funext fun e => congrArg BitVec.toInt (host0_v3 (W0 m c) e)
  all_goals
    funext j
    unfold row
    after_results
    exact shapeCast_a_1a_apply _ shapeCasts_S128_S1x128 0 j

theorem inAt3 : InAt (W3 m c) 𝕀 := (inAt1 m c hs).step (by decide) (W3_W1 m c)
theorem inAt4 : InAt (W4 m c) 𝕀 := (inAt3 m c hs).step (by decide) (W4_of m c)
theorem inAt5 : InAt (W5 m c) 𝕀 := (inAt4 m c hs).step (by decide) (W5_of m c)
theorem inAt6 : InAt (W6 m c) 𝕀 := (inAt5 m c hs).step (by decide) (W6_of m c)
theorem inAt7 : InAt (W7 m c) 𝕀 := (inAt6 m c hs).step (by decide) (W7_of m c)
theorem inAt9 : InAt (W9 m c) 𝕀 := (inAt7 m c hs).step (by decide) (W9_W7 m c)
theorem inAt11 : InAt (W11 m c) 𝕀 := (inAt9 m c hs).step (by decide) (W11_W9 m c)

/-- Edge encoder, first affine map: its mean and variance. -/
theorem meanVar0 : row (W3 m c main_v16) = mean cE (x1 𝕀) ∧ row (W3 m c main_v20) = 𝕧0 :=
  meanVar_of_sums (s := W2 m c main_v14_0) (q := W2 m c main_v14_1)
    (fun j => (congrFun (Pipeline.withArrays_arr spec0 launch0.win.arr_inj c _ _ 3) _).trans
      ((val0_sum _ c j).trans (congrArg (csum · j) (lin_x1 (inAt1 m c hs)))))
    (fun j => (congrFun (Pipeline.withArrays_arr spec0 launch0.win.arr_inj c _ _ 4) _).trans
      ((val0_sumsq _ c j).trans (congrArg (csumsq · j) (lin_x1 (inAt1 m c hs)))))
    (host1_v16 (W2 m c)) (host1_v20 (W2 m c))

/-- The edge embeddings. -/
theorem mat_v21 : mat (W4 m c main_v21) = emb 𝕀 𝕧0 := by
  have h3 := inAt3 m c hs
  funext e j
  show W4 m c main_v21 (ix2 e j) = _
  refine (congrFun (Pipeline.withArrays_arr spec1 launch1.win.arr_inj c _ _ 9) _).trans ((val1 _ c e j).trans ?_)
  rw [lin_x1 h3, (meanVar0 m c hs).1, (meanVar0 m c hs).2, h3.g1, h3.bb1, h3.w2, h3.b2]
  rfl

/-- Embeddings summed at their destinations, plus the node features. -/
theorem mat_v25 : mat (W5 m c main_v25) = hnew 𝕀 𝕧0 := by
  have h4 := inAt4 m c hs
  funext r j
  refine (host2_v25 (W4 m c) r j).trans ?_
  rw [h4.dst, mat_v21 m c hs, h4.h]
  rfl

/-- Each edge's source node's new features. -/
theorem mat_v26 : mat (W6 m c main_v26) = fun e j => hnew 𝕀 𝕧0 ((𝕀).src e) j := by
  have h5 := inAt5 m c hs
  funext e j
  refine (host21_v26 (W5 m c) h5.srcb e j).trans ?_
  rw [h5.src e, mat_v25 m c hs]

/-- Those summed at the destinations. -/
theorem midAt7 : MidAt (W7 m c) 𝕀 𝕧0 := by
  refine ⟨?_, funext fun r => funext fun j => (host22_v29 (W6 m c) r j).trans ?_⟩
  · rw [(W7_of m c main_v25 (by decide)).trans (W6_of m c main_v25 (by decide))]
    exact mat_v25 m c hs
  · rw [(inAt6 m c hs).dst, mat_v26 m c hs]

theorem midAt9 : MidAt (W9 m c) 𝕀 𝕧0 :=
  ⟨(congrArg mat (W9_W7 m c main_v25 (by decide))).trans (midAt7 m c hs).1,
    (congrArg mat (W9_W7 m c main_v29 (by decide))).trans (midAt7 m c hs).2⟩

theorem midAt11 : MidAt (W11 m c) 𝕀 𝕧0 :=
  ⟨(congrArg mat (W11_W9 m c main_v25 (by decide))).trans (midAt9 m c hs).1,
    (congrArg mat (W11_W9 m c main_v29 (by decide))).trans (midAt9 m c hs).2⟩

/-- Node network, first affine map: its mean and variance. -/
theorem meanVar2 : row (W9 m c main_v32) = mean cN (y1 𝕀 𝕧0) ∧ row (W9 m c main_v36) = 𝕧1 :=
  meanVar_of_sums (s := W8 m c main_v30_0) (q := W8 m c main_v30_1)
    (fun j => (congrFun (Pipeline.withArrays_arr spec2 launch2.win.arr_inj c _ _ 4) _).trans
      ((val2_sum _ c j).trans (congrArg (csum · j) (yW_eq (inAt7 m c hs) (midAt7 m c hs)))))
    (fun j => (congrFun (Pipeline.withArrays_arr spec2 launch2.win.arr_inj c _ _ 5) _).trans
      ((val2_sumsq _ c j).trans (congrArg (csumsq · j) (yW_eq (inAt7 m c hs) (midAt7 m c hs)))))
    (host3_v32 (W8 m c)) (host3_v36 (W8 m c))

theorem y2W9 : y2W (W9 m c) = y2 𝕀 𝕧0 𝕧1 :=
  y2W_eq (inAt9 m c hs) (midAt9 m c hs) (meanVar2 m c hs).1 (meanVar2 m c hs).2

/-- Node network, second affine map: its mean and variance. -/
theorem meanVar3 : row (W11 m c main_v39) = mean cN (y2 𝕀 𝕧0 𝕧1) ∧ row (W11 m c main_v43) = varK cN (y2 𝕀 𝕧0 𝕧1) :=
  meanVar_of_sums (s := W10 m c main_v37_0) (q := W10 m c main_v37_1)
    (fun j => (congrFun (Pipeline.withArrays_arr spec3 launch3.win.arr_inj c _ _ 10) _).trans
      ((val3_sum _ c j).trans (congrArg (csum · j) (y2W9 m c hs))))
    (fun j => (congrFun (Pipeline.withArrays_arr spec3 launch3.win.arr_inj c _ _ 11) _).trans
      ((val3_sumsq _ c j).trans (congrArg (csumsq · j) (y2W9 m c hs))))
    (host4_v39 (W10 m c)) (host4_v43 (W10 m c))

/-- Normalising and rectifying the second map gives the layer, each variance being mean of squares minus squared mean. -/
theorem kernel_value (r : Fin 50000) (j : Fin 128) :
    W12 (F := Ideal) m c main_v44 (ix2 r j) = outK (Cert.Proof.inpK m c) r j := by
  have h11 := inAt11 m c hs
  have hy : y2W (W11 m c) = y2 𝕀 𝕧0 𝕧1 := y2W_eq h11 (midAt11 m c hs)
    ((congrArg row (W11_W9 m c main_v32 (by decide))).trans (meanVar2 m c hs).1)
    ((congrArg row (W11_W9 m c main_v36 (by decide))).trans (meanVar2 m c hs).2)
  refine (congrFun (Pipeline.withArrays_arr spec4 launch4.win.arr_inj c _ _ 14) _).trans ((val4 _ c r j).trans ?_)
  show bnrelu (y2W (W11 m c)) (row (W11 m c main_v39)) (row (W11 m c main_v43)) (row (W11 m c main_v12))
    (row (W11 m c main_v13)) r j = _
  rw [hy, (meanVar3 m c hs).1, (meanVar3 m c hs).2, h11.mg2, h11.mbb2]
  rfl

end Ladder

end Cert.KernelIdeal.Hand

end
-- ==== Proof.Algebraic.lean ====
import proofs.«416878_j12463995093413_1_alg».proof.Defs
import proofs.«416878_j12463995093413_1_alg».proof.Proof.Gen.KernelIdeal
import proofs.«416878_j12463995093413_1_alg».proof.Proof.Gen.ReferenceIdeal
import proofs.«416878_j12463995093413_1_alg».proof.Proof.Gen.Pre_finite_inputs
import proofs.«416878_j12463995093413_1_alg».proof.Proof.Spec
import proofs.«416878_j12463995093413_1_alg».proof.Proof.SpecMath
import proofs.«416878_j12463995093413_1_alg».proof.Proof.InpK
import proofs.«416878_j12463995093413_1_alg».proof.Proof.PreFacts
import proofs.«416878_j12463995093413_1_alg».proof.Proof.Ref.Run
import proofs.«416878_j12463995093413_1_alg».proof.Proof.Ref.Value
import proofs.«416878_j12463995093413_1_alg».proof.Proof.KIdeal.Segs
import proofs.«416878_j12463995093413_1_alg».proof.Proof.KIdeal.KValue

noncomputable section

namespace Cert.Proof

open Idealize.ShloMosaic Idealize.ShloMosaic.ValueIdx Idealize.SL.Sem

theorem frame_ref : @Cert.frame_ReferenceIdeal Cert.ReferenceIdeal.Gen.facts Cert.Pre_finite_inputs.Gen.facts :=
  fun m ρ _ => (θ_run _ _ _).mono (fun _ h c => (h c).2) (Cert.ReferenceIdeal.Hand.ref_run (F := Ideal) m ρ)

/-- Both results are the layer with the variance as the mean of squared deviations, of the kernel's arguments: the kernel's by `outK_eq_outR` on the real inputs the precondition grants, the reference's because the arguments agree. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hinp : ∀ c, Cert.ReferenceIdeal.Hand.inpR m' c = inpK m c := by
    intro c
    obtain ⟨h0, h1, h2, h3, h4, h5, h6, h7, h8, h9, h10, h11, h12, h13, h14, h15, h16⟩ := hagree c
    unfold Cert.ReferenceIdeal.Hand.inpR inpK
    rw [h0, h1, h2, h3, h4, h5, h6, h7, h8, h9, h10, h11, h12, h13, h14, h15, h16]
  refine ⟨fun c => Cert.Gin.unmat (Cert.Gin.outR (inpK m c)), ?_, ?_⟩
  · exact (θ_run _ _ _).mono (fun _ h c => ⟨(h c).1.trans
        (Cert.Gin.eq_unmat (a := 50000) (b := 128) _ _ fun r j =>
          (Cert.KernelIdeal.Hand.kernel_value m c (pre_src m hpre c) r j).trans
            (congrFun (congrFun (Cert.Gin.outK_eq_outR _ (pre_real m hpre c)) r) j)), (h c).2⟩)
      (Cert.KernelIdeal.Hand.kernel_run m ρ)
  · exact (θ_run _ _ _).mono (fun _ h c => ⟨(h c).1.trans
        (Cert.Gin.eq_unmat (a := 50000) (b := 128) _ _ fun r j =>
          (Cert.ReferenceIdeal.Hand.ref_value m' c r j).trans (by rw [hinp c])), (h c).2⟩)
      (Cert.ReferenceIdeal.Hand.ref_run (F := Ideal) m' ρ')

end Cert.Proof

end
-- ==== Proof.lean ====
/-
  A graph layer — edge encoder, sum of the edge embeddings into their destination nodes, neighbour sum, two affine
  maps each followed by batch normalisation and the rectifier — computed by five tiled kernels with host scatters and a
  gather between them, against its plain reference. The kernel takes each variance as the mean of squares minus the
  squared mean, the reference as the mean of squared deviations: on real inputs they are one number.
-/
import proofs.«416878_j12463995093413_1_alg».proof.Defs
import proofs.«416878_j12463995093413_1_alg».proof.Proof.Gen.Kernel
import proofs.«416878_j12463995093413_1_alg».proof.Proof.Gen.KernelIdeal
import proofs.«416878_j12463995093413_1_alg».proof.Proof.Gen.ReferenceIdeal
import proofs.«416878_j12463995093413_1_alg».proof.Proof.Gen.Pre_finite_inputs
import proofs.«416878_j12463995093413_1_alg».proof.Proof.KBits.Segs
import proofs.«416878_j12463995093413_1_alg».proof.Proof.KIdeal.Segs
import proofs.«416878_j12463995093413_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    frame_ref,
    trivial,
    algebraic⟩

end Cert.Proof

end
